-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v337) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x3 : Shape := ⟨2, ![524288, 3]⟩
abbrev S8388608x2 : Shape := ⟨2, ![8388608, 2]⟩
abbrev S_ : Shape := ⟨0, ![]⟩

class Facts : Prop where
  bcast_S_S524288x3 : S_.BroadcastsInDim S524288x3 (![] : Fin 0 → Fin S524288x3.rank)
  reducesTo_S524288x3_S_d0_1 : S524288x3.ReducesTo [0, 1] S_
  h_S_ : 0 < S_.numel
  bcast_S_S8388608x2 : S_.BroadcastsInDim S8388608x2 (![] : Fin 0 → Fin S8388608x2.rank)
  reducesTo_S8388608x2_S_d0_1 : S8388608x2.ReducesTo [0, 1] S_

variable [Facts]

def fn {F : FTy → Type} [FloatOps F] (main_arg0 : FVec F S524288x3 .f32) (main_arg1 : FVec F S8388608x2 .f32) : IVec S_ 1 :=
  let main_v0 : FVec F S524288x3 .f32 := Host.absf main_arg0
  let main_cst : FVec F S_ .f32 := constant S_ .f32 0x7F800000#32
  let main_v1 : FVec F S524288x3 .f32 := broadcastInDim S524288x3 ![] bcast_S_S524288x3 main_cst
  let main_v2 : IVec S524288x3 1 := cmpf .olt main_v0 main_v1
  let main_c : IVec S_ 1 := constantI S_ 1 1#1
  let main_v3 : IVec S_ 1 := (fun x v => Host.reduce IntOp.andi x v reducesTo_S524288x3_S_d0_1 h_S_) main_v2 main_c
  let main_v4 : FVec F S8388608x2 .f32 := Host.absf main_arg1
  let main_cst_0 : FVec F S_ .f32 := constant S_ .f32 0x7F800000#32
  let main_v5 : FVec F S8388608x2 .f32 := broadcastInDim S8388608x2 ![] bcast_S_S8388608x2 main_cst_0
  let main_v6 : IVec S8388608x2 1 := cmpf .olt main_v4 main_v5
  let main_c_1 : IVec S_ 1 := constantI S_ 1 1#1
  let main_v7 : IVec S_ 1 := (fun x v => Host.reduce IntOp.andi x v reducesTo_S8388608x2_S_d0_1 h_S_) main_v6 main_c_1
  let main_v8 : IVec S_ 1 := andi main_v3 main_v7
  main_v8
-- ==== Kernel.lean ====
abbrev S524288x3 : Shape := ⟨2, ![524288, 3]⟩
abbrev S8388608x2 : Shape := ⟨2, ![8388608, 2]⟩
abbrev S16 : Shape := ⟨1, ![16]⟩
abbrev S3x524288 : Shape := ⟨2, ![3, 524288]⟩
abbrev S16x1 : Shape := ⟨2, ![16, 1]⟩
abbrev S16x128 : Shape := ⟨2, ![16, 128]⟩
abbrev S16x8x524288 : Shape := ⟨3, ![16, 8, 524288]⟩
abbrev S16x3x524288 : Shape := ⟨3, ![16, 3, 524288]⟩
abbrev S3x8192 : Shape := ⟨2, ![3, 8192]⟩
abbrev S16x8x8192 : Shape := ⟨3, ![16, 8, 8192]⟩
abbrev S16x3x8192 : Shape := ⟨3, ![16, 3, 8192]⟩
abbrev S16x1x1 : Shape := ⟨3, ![16, 1, 1]⟩
abbrev S1x3x8192 : Shape := ⟨3, ![1, 3, 8192]⟩
abbrev S16x1x8192 : Shape := ⟨3, ![16, 1, 8192]⟩
abbrev S16x8192 : Shape := ⟨2, ![16, 8192]⟩
abbrev S8388608x1 : Shape := ⟨2, ![8388608, 1]⟩
abbrev S8388608 : Shape := ⟨1, ![8388608]⟩
abbrev S_ : Shape := ⟨0, ![]⟩
abbrev S16x8x524288x1 : Shape := ⟨4, ![16, 8, 524288, 1]⟩
abbrev S16x8x1x524288 : Shape := ⟨4, ![16, 8, 1, 524288]⟩
abbrev S16x8x2x524288 : Shape := ⟨4, ![16, 8, 2, 524288]⟩
abbrev S524288x32 : Shape := ⟨2, ![524288, 32]⟩
abbrev S16x8x2x8192 : Shape := ⟨4, ![16, 8, 2, 8192]⟩
abbrev S8192x32 : Shape := ⟨2, ![8192, 32]⟩
abbrev S1x1x2x8192 : Shape := ⟨4, ![1, 1, 2, 8192]⟩
abbrev S2x8192 : Shape := ⟨2, ![2, 8192]⟩
abbrev S1x1x8192 : Shape := ⟨3, ![1, 1, 8192]⟩
abbrev S1x8192 : Shape := ⟨2, ![1, 8192]⟩
abbrev S32x8192 : Shape := ⟨2, ![32, 8192]⟩

abbrev nBuf : Space → Nat
  | .hbm => 34
  | .vmem => 13
  | .smem => 0
  | _ => 0

abbrev bufTy : (tb : Table) → Fin (tcTables nBuf tb) → BufTy
  | .hbm, ⟨0, _⟩ => ⟨S524288x3, .f32⟩
  | .hbm, ⟨1, _⟩ => ⟨S8388608x2, .f32⟩
  | .hbm, ⟨2, _⟩ => ⟨S16, .f32⟩
  | .hbm, ⟨3, _⟩ => ⟨S3x524288, .f32⟩
  | .hbm, ⟨4, _⟩ => ⟨S16x1, .f32⟩
  | .hbm, ⟨5, _⟩ => ⟨S16x128, .f32⟩
  | .hbm, ⟨6, _⟩ => ⟨S16x8x524288, .i32⟩
  | .hbm, ⟨7, _⟩ => ⟨S16x3x524288, .f32⟩
  | .hbm, ⟨8, _⟩ => ⟨S8388608x1, .f32⟩
  | .hbm, ⟨9, _⟩ => ⟨S8388608, .f32⟩
  | .hbm, ⟨10, _⟩ => ⟨S8388608x1, .f32⟩
  | .hbm, ⟨11, _⟩ => ⟨S8388608, .f32⟩
  | .hbm, ⟨12, _⟩ => ⟨S_, .i32⟩
  | .hbm, ⟨13, _⟩ => ⟨S16x8x524288, .i32⟩
  | .hbm, ⟨14, _⟩ => ⟨S16x8x524288, .i1⟩
  | .hbm, ⟨15, _⟩ => ⟨S_, .i32⟩
  | .hbm, ⟨16, _⟩ => ⟨S16x8x524288, .i32⟩
  | .hbm, ⟨17, _⟩ => ⟨S16x8x524288, .i32⟩
  | .hbm, ⟨18, _⟩ => ⟨S16x8x524288, .i32⟩
  | .hbm, ⟨19, _⟩ => ⟨S16x8x524288x1, .i32⟩
  | .hbm, ⟨20, _⟩ => ⟨S16x8x524288, .f32⟩
  | .hbm, ⟨21, _⟩ => ⟨S_, .i32⟩
  | .hbm, ⟨22, _⟩ => ⟨S16x8x524288, .i32⟩
  | .hbm, ⟨23, _⟩ => ⟨S16x8x524288, .i1⟩
  | .hbm, ⟨24, _⟩ => ⟨S_, .i32⟩
  | .hbm, ⟨25, _⟩ => ⟨S16x8x524288, .i32⟩
  | .hbm, ⟨26, _⟩ => ⟨S16x8x524288, .i32⟩
  | .hbm, ⟨27, _⟩ => ⟨S16x8x524288, .i32⟩
  | .hbm, ⟨28, _⟩ => ⟨S16x8x524288x1, .i32⟩
  | .hbm, ⟨29, _⟩ => ⟨S16x8x524288, .f32⟩
  | .hbm, ⟨30, _⟩ => ⟨S16x8x1x524288, .f32⟩
  | .hbm, ⟨31, _⟩ => ⟨S16x8x1x524288, .f32⟩
  | .hbm, ⟨32, _⟩ => ⟨S16x8x2x524288, .f32⟩
  | .hbm, ⟨33, _⟩ => ⟨S524288x32, .f32⟩
  | .local _ .vmem, ⟨0, _⟩ => ⟨S3x8192, .f32⟩
  | .local _ .vmem, ⟨1, _⟩ => ⟨S3x8192, .f32⟩
  | .local _ .vmem, ⟨2, _⟩ => ⟨S16x128, .f32⟩
  | .local _ .vmem, ⟨3, _⟩ => ⟨S16x8x8192, .i32⟩
  | .local _ .vmem, ⟨4, _⟩ => ⟨S16x8x8192, .i32⟩
  | .local _ .vmem, ⟨5, _⟩ => ⟨S16x3x8192, .f32⟩
  | .local _ .vmem, ⟨6, _⟩ => ⟨S16x3x8192, .f32⟩
  | .local _ .vmem, ⟨7, _⟩ => ⟨S16x8x2x8192, .f32⟩
  | .local _ .vmem, ⟨8, _⟩ => ⟨S16x8x2x8192, .f32⟩
  | .local _ .vmem, ⟨9, _⟩ => ⟨S16x3x8192, .f32⟩
  | .local _ .vmem, ⟨10, _⟩ => ⟨S16x3x8192, .f32⟩
  | .local _ .vmem, ⟨11, _⟩ => ⟨S8192x32, .f32⟩
  | .local _ .vmem, ⟨12, _⟩ => ⟨S8192x32, .f32⟩
  | _, _ => ⟨S524288x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_1 : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S3x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x8x8192 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x3x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16x8x2x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x3x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  transposes_S524288x3_S3x524288_1_0 : S524288x3.Transposes [1, 0] S3x524288
  bcast_S16_S16x1_0 : S16.BroadcastsInDim S16x1 (![0] : Fin 1 → Fin S16x1.rank)
  bcast_S16x1_S16x128_0_1 : S16x1.BroadcastsInDim S16x128 (![0, 1] : Fin 2 → Fin S16x128.rank)
  inb_S3x8192_S3x8192_0_0 : ∀ a, (![0, 0] : Fin 2 → Nat) a + S3x8192.size a ≤ S3x8192.size a
  h_S3x8192 : 0 < S3x8192.numel
  shapeCasts_S3x8192_S3x8192 : S3x8192.ShapeCasts S3x8192
  inb_S16x128_S16x1_0_0 : ∀ a, (![0, 0] : Fin 2 → Nat) a + S16x1.size a ≤ S16x128.size a
  h_S16x1 : 0 < S16x1.numel
  shapeCasts_S16x1_S16x1 : S16x1.ShapeCasts S16x1
  shapeCasts_S16x1_S16x1x1 : S16x1.ShapeCasts S16x1x1
  shapeCasts_S3x8192_S1x3x8192 : S3x8192.ShapeCasts S1x3x8192
  broadcasts_S1x3x8192_S16x3x8192 : S1x3x8192.Broadcasts S16x3x8192
  broadcasts_S16x1x1_S16x3x8192 : S16x1x1.Broadcasts S16x3x8192
  inb_S16x3x8192_S16x3x8192_0_0_0 : ∀ a, (![0, 0, 0] : Fin 3 → Nat) a + S16x3x8192.size a ≤ S16x3x8192.size a
  h_S16x3x8192 : 0 < S16x3x8192.numel
  slices_S16x3x8192_o0_0_0_S16x1x8192 : S16x3x8192.Slices ![0, 0, 0] S16x1x8192
  shapeCasts_S16x1x8192_S16x8192 : S16x1x8192.ShapeCasts S16x8192
  slices_S16x3x8192_o0_1_0_S16x1x8192 : S16x3x8192.Slices ![0, 1, 0] S16x1x8192
  slices_S16x3x8192_o0_2_0_S16x1x8192 : S16x3x8192.Slices ![0, 2, 0] S16x1x8192
  iota_S16x1_d0_w32 : S16x1.Iotas .tc 32 [0]
  broadcasts_S16x1_S16x8192 : S16x1.Broadcasts S16x8192
  inb_S16x8x8192_S16x1x8192_0_0_0 : ∀ a, (![0, 0, 0] : Fin 3 → Nat) a + S16x1x8192.size a ≤ S16x8x8192.size a
  h_S16x1x8192 : 0 < S16x1x8192.numel
  shapeCasts_S16x8192_S16x1x8192 : S16x8192.ShapeCasts S16x1x8192
  inb_S16x8x8192_S16x1x8192_0_1_0 : ∀ a, (![0, 1, 0] : Fin 3 → Nat) a + S16x1x8192.size a ≤ S16x8x8192.size a
  inb_S16x8x8192_S16x1x8192_0_2_0 : ∀ a, (![0, 2, 0] : Fin 3 → Nat) a + S16x1x8192.size a ≤ S16x8x8192.size a
  inb_S16x8x8192_S16x1x8192_0_3_0 : ∀ a, (![0, 3, 0] : Fin 3 → Nat) a + S16x1x8192.size a ≤ S16x8x8192.size a
  inb_S16x8x8192_S16x1x8192_0_4_0 : ∀ a, (![0, 4, 0] : Fin 3 → Nat) a + S16x1x8192.size a ≤ S16x8x8192.size a
  inb_S16x8x8192_S16x1x8192_0_5_0 : ∀ a, (![0, 5, 0] : Fin 3 → Nat) a + S16x1x8192.size a ≤ S16x8x8192.size a
  inb_S16x8x8192_S16x1x8192_0_6_0 : ∀ a, (![0, 6, 0] : Fin 3 → Nat) a + S16x1x8192.size a ≤ S16x8x8192.size a
  inb_S16x8x8192_S16x1x8192_0_7_0 : ∀ a, (![0, 7, 0] : Fin 3 → Nat) a + S16x1x8192.size a ≤ S16x8x8192.size a
  slices_S8388608x2_S8388608x1_0_0 : S8388608x2.Slices ![0, 0] S8388608x1
  shapeCasts_S8388608x1_S8388608 : S8388608x1.ShapeCasts S8388608
  slices_S8388608x2_S8388608x1_0_1 : S8388608x2.Slices ![0, 1] S8388608x1
  bcast_S_S16x8x524288 : S_.BroadcastsInDim S16x8x524288 (![] : Fin 0 → Fin S16x8x524288.rank)
  bcast_S16x8x524288_S16x8x524288x1_0_1_2 : S16x8x524288.BroadcastsInDim S16x8x524288x1 (![0, 1, 2] : Fin 3 → Fin S16x8x524288x1.rank)
  bcast_S16x8x524288_S16x8x1x524288_0_1_3 : S16x8x524288.BroadcastsInDim S16x8x1x524288 (![0, 1, 3] : Fin 3 → Fin S16x8x1x524288.rank)
  concatenates_S16x8x1x524288_S16x8x1x524288_S16x8x2x524288_d2 : Shape.Concatenates [S16x8x1x524288, S16x8x1x524288] S16x8x2x524288 2
  inb_S16x8x2x8192_S1x1x2x8192_0_0_0_0 : ∀ a, (![0, 0, 0, 0] : Fin 4 → Nat) a + S1x1x2x8192.size a ≤ S16x8x2x8192.size a
  h_S1x1x2x8192 : 0 < S1x1x2x8192.numel
  shapeCasts_S1x1x2x8192_S2x8192 : S1x1x2x8192.ShapeCasts S2x8192
  inb_S16x8x2x8192_S1x1x2x8192_0_1_0_0 : ∀ a, (![0, 1, 0, 0] : Fin 4 → Nat) a + S1x1x2x8192.size a ≤ S16x8x2x8192.size a
  inb_S16x8x2x8192_S1x1x2x8192_0_2_0_0 : ∀ a, (![0, 2, 0, 0] : Fin 4 → Nat) a + S1x1x2x8192.size a ≤ S16x8x2x8192.size a
  inb_S16x8x2x8192_S1x1x2x8192_0_3_0_0 : ∀ a, (![0, 3, 0, 0] : Fin 4 → Nat) a + S1x1x2x8192.size a ≤ S16x8x2x8192.size a
  inb_S16x8x2x8192_S1x1x2x8192_0_4_0_0 : ∀ a, (![0, 4, 0, 0] : Fin 4 → Nat) a + S1x1x2x8192.size a ≤ S16x8x2x8192.size a
  inb_S16x8x2x8192_S1x1x2x8192_0_5_0_0 : ∀ a, (![0, 5, 0, 0] : Fin 4 → Nat) a + S1x1x2x8192.size a ≤ S16x8x2x8192.size a
  inb_S16x8x2x8192_S1x1x2x8192_0_6_0_0 : ∀ a, (![0, 6, 0, 0] : Fin 4 → Nat) a + S1x1x2x8192.size a ≤ S16x8x2x8192.size a
  inb_S16x8x2x8192_S1x1x2x8192_0_7_0_0 : ∀ a, (![0, 7, 0, 0] : Fin 4 → Nat) a + S1x1x2x8192.size a ≤ S16x8x2x8192.size a
  inb_S16x3x8192_S1x1x8192_0_0_0 : ∀ a, (![0, 0, 0] : Fin 3 → Nat) a + S1x1x8192.size a ≤ S16x3x8192.size a
  h_S1x1x8192 : 0 < S1x1x8192.numel
  shapeCasts_S1x1x8192_S1x8192 : S1x1x8192.ShapeCasts S1x8192
  inb_S16x3x8192_S1x1x8192_0_1_0 : ∀ a, (![0, 1, 0] : Fin 3 → Nat) a + S1x1x8192.size a ≤ S16x3x8192.size a
  inb_S16x3x8192_S1x1x8192_0_2_0 : ∀ a, (![0, 2, 0] : Fin 3 → Nat) a + S1x1x8192.size a ≤ S16x3x8192.size a
  broadcasts_S1x8192_S2x8192 : S1x8192.Broadcasts S2x8192
  inb_S16x8x2x8192_S1x1x2x8192_1_0_0_0 : ∀ a, (![1, 0, 0, 0] : Fin 4 → Nat) a + S1x1x2x8192.size a ≤ S16x8x2x8192.size a
  inb_S16x8x2x8192_S1x1x2x8192_1_1_0_0 : ∀ a, (![1, 1, 0, 0] : Fin 4 → Nat) a + S1x1x2x8192.size a ≤ S16x8x2x8192.size a
  inb_S16x8x2x8192_S1x1x2x8192_1_2_0_0 : ∀ a, (![1, 2, 0, 0] : Fin 4 → Nat) a + S1x1x2x8192.size a ≤ S16x8x2x8192.size a
  inb_S16x8x2x8192_S1x1x2x8192_1_3_0_0 : ∀ a, (![1, 3, 0, 0] : Fin 4 → Nat) a + S1x1x2x8192.size a ≤ S16x8x2x8192.size a
  inb_S16x8x2x8192_S1x1x2x8192_1_4_0_0 : ∀ a, (![1, 4, 0, 0] : Fin 4 → Nat) a + S1x1x2x8192.size a ≤ S16x8x2x8192.size a
  inb_S16x8x2x8192_S1x1x2x8192_1_5_0_0 : ∀ a, (![1, 5, 0, 0] : Fin 4 → Nat) a + S1x1x2x8192.size a ≤ S16x8x2x8192.size a
  inb_S16x8x2x8192_S1x1x2x8192_1_6_0_0 : ∀ a, (![1, 6, 0, 0] : Fin 4 → Nat) a + S1x1x2x8192.size a ≤ S16x8x2x8192.size a
  inb_S16x8x2x8192_S1x1x2x8192_1_7_0_0 : ∀ a, (![1, 7, 0, 0] : Fin 4 → Nat) a + S1x1x2x8192.size a ≤ S16x8x2x8192.size a
  inb_S16x3x8192_S1x1x8192_1_0_0 : ∀ a, (![1, 0, 0] : Fin 3 → Nat) a + S1x1x8192.size a ≤ S16x3x8192.size a
  inb_S16x3x8192_S1x1x8192_1_1_0 : ∀ a, (![1, 1, 0] : Fin 3 → Nat) a + S1x1x8192.size a ≤ S16x3x8192.size a
  inb_S16x3x8192_S1x1x8192_1_2_0 : ∀ a, (![1, 2, 0] : Fin 3 → Nat) a + S1x1x8192.size a ≤ S16x3x8192.size a
  inb_S16x8x2x8192_S1x1x2x8192_2_0_0_0 : ∀ a, (![2, 0, 0, 0] : Fin 4 → Nat) a + S1x1x2x8192.size a ≤ S16x8x2x8192.size a
  inb_S16x8x2x8192_S1x1x2x8192_2_1_0_0 : ∀ a, (![2, 1, 0, 0] : Fin 4 → Nat) a + S1x1x2x8192.size a ≤ S16x8x2x8192.size a
  inb_S16x8x2x8192_S1x1x2x8192_2_2_0_0 : ∀ a, (![2, 2, 0, 0] : Fin 4 → Nat) a + S1x1x2x8192.size a ≤ S16x8x2x8192.size a
  inb_S16x8x2x8192_S1x1x2x8192_2_3_0_0 : ∀ a, (![2, 3, 0, 0] : Fin 4 → Nat) a + S1x1x2x8192.size a ≤ S16x8x2x8192.size a
  inb_S16x8x2x8192_S1x1x2x8192_2_4_0_0 : ∀ a, (![2, 4, 0, 0] : Fin 4 → Nat) a + S1x1x2x8192.size a ≤ S16x8x2x8192.size a
  inb_S16x8x2x8192_S1x1x2x8192_2_5_0_0 : ∀ a, (![2, 5, 0, 0] : Fin 4 → Nat) a + S1x1x2x8192.size a ≤ S16x8x2x8192.size a
  inb_S16x8x2x8192_S1x1x2x8192_2_6_0_0 : ∀ a, (![2, 6, 0, 0] : Fin 4 → Nat) a + S1x1x2x8192.size a ≤ S16x8x2x8192.size a
  inb_S16x8x2x8192_S1x1x2x8192_2_7_0_0 : ∀ a, (![2, 7, 0, 0] : Fin 4 → Nat) a + S1x1x2x8192.size a ≤ S16x8x2x8192.size a
  inb_S16x3x8192_S1x1x8192_2_0_0 : ∀ a, (![2, 0, 0] : Fin 3 → Nat) a + S1x1x8192.size a ≤ S16x3x8192.size a
  inb_S16x3x8192_S1x1x8192_2_1_0 : ∀ a, (![2, 1, 0] : Fin 3 → Nat) a + S1x1x8192.size a ≤ S16x3x8192.size a
  inb_S16x3x8192_S1x1x8192_2_2_0 : ∀ a, (![2, 2, 0] : Fin 3 → Nat) a + S1x1x8192.size a ≤ S16x3x8192.size a
  inb_S16x8x2x8192_S1x1x2x8192_3_0_0_0 : ∀ a, (![3, 0, 0, 0] : Fin 4 → Nat) a + S1x1x2x8192.size a ≤ S16x8x2x8192.size a
  inb_S16x8x2x8192_S1x1x2x8192_3_1_0_0 : ∀ a, (![3, 1, 0, 0] : Fin 4 → Nat) a + S1x1x2x8192.size a ≤ S16x8x2x8192.size a
  inb_S16x8x2x8192_S1x1x2x8192_3_2_0_0 : ∀ a, (![3, 2, 0, 0] : Fin 4 → Nat) a + S1x1x2x8192.size a ≤ S16x8x2x8192.size a
  inb_S16x8x2x8192_S1x1x2x8192_3_3_0_0 : ∀ a, (![3, 3, 0, 0] : Fin 4 → Nat) a + S1x1x2x8192.size a ≤ S16x8x2x8192.size a
  inb_S16x8x2x8192_S1x1x2x8192_3_4_0_0 : ∀ a, (![3, 4, 0, 0] : Fin 4 → Nat) a + S1x1x2x8192.size a ≤ S16x8x2x8192.size a
  inb_S16x8x2x8192_S1x1x2x8192_3_5_0_0 : ∀ a, (![3, 5, 0, 0] : Fin 4 → Nat) a + S1x1x2x8192.size a ≤ S16x8x2x8192.size a
  inb_S16x8x2x8192_S1x1x2x8192_3_6_0_0 : ∀ a, (![3, 6, 0, 0] : Fin 4 → Nat) a + S1x1x2x8192.size a ≤ S16x8x2x8192.size a
  inb_S16x8x2x8192_S1x1x2x8192_3_7_0_0 : ∀ a, (![3, 7, 0, 0] : Fin 4 → Nat) a + S1x1x2x8192.size a ≤ S16x8x2x8192.size a
  inb_S16x3x8192_S1x1x8192_3_0_0 : ∀ a, (![3, 0, 0] : Fin 3 → Nat) a + S1x1x8192.size a ≤ S16x3x8192.size a
  inb_S16x3x8192_S1x1x8192_3_1_0 : ∀ a, (![3, 1, 0] : Fin 3 → Nat) a + S1x1x8192.size a ≤ S16x3x8192.size a
  inb_S16x3x8192_S1x1x8192_3_2_0 : ∀ a, (![3, 2, 0] : Fin 3 → Nat) a + S1x1x8192.size a ≤ S16x3x8192.size a
  inb_S16x8x2x8192_S1x1x2x8192_4_0_0_0 : ∀ a, (![4, 0, 0, 0] : Fin 4 → Nat) a + S1x1x2x8192.size a ≤ S16x8x2x8192.size a
  inb_S16x8x2x8192_S1x1x2x8192_4_1_0_0 : ∀ a, (![4, 1, 0, 0] : Fin 4 → Nat) a + S1x1x2x8192.size a ≤ S16x8x2x8192.size a
  inb_S16x8x2x8192_S1x1x2x8192_4_2_0_0 : ∀ a, (![4, 2, 0, 0] : Fin 4 → Nat) a + S1x1x2x8192.size a ≤ S16x8x2x8192.size a
  inb_S16x8x2x8192_S1x1x2x8192_4_3_0_0 : ∀ a, (![4, 3, 0, 0] : Fin 4 → Nat) a + S1x1x2x8192.size a ≤ S16x8x2x8192.size a
  inb_S16x8x2x8192_S1x1x2x8192_4_4_0_0 : ∀ a, (![4, 4, 0, 0] : Fin 4 → Nat) a + S1x1x2x8192.size a ≤ S16x8x2x8192.size a
  inb_S16x8x2x8192_S1x1x2x8192_4_5_0_0 : ∀ a, (![4, 5, 0, 0] : Fin 4 → Nat) a + S1x1x2x8192.size a ≤ S16x8x2x8192.size a
  inb_S16x8x2x8192_S1x1x2x8192_4_6_0_0 : ∀ a, (![4, 6, 0, 0] : Fin 4 → Nat) a + S1x1x2x8192.size a ≤ S16x8x2x8192.size a
  inb_S16x8x2x8192_S1x1x2x8192_4_7_0_0 : ∀ a, (![4, 7, 0, 0] : Fin 4 → Nat) a + S1x1x2x8192.size a ≤ S16x8x2x8192.size a
  inb_S16x3x8192_S1x1x8192_4_0_0 : ∀ a, (![4, 0, 0] : Fin 3 → Nat) a + S1x1x8192.size a ≤ S16x3x8192.size a
  inb_S16x3x8192_S1x1x8192_4_1_0 : ∀ a, (![4, 1, 0] : Fin 3 → Nat) a + S1x1x8192.size a ≤ S16x3x8192.size a
  inb_S16x3x8192_S1x1x8192_4_2_0 : ∀ a, (![4, 2, 0] : Fin 3 → Nat) a + S1x1x8192.size a ≤ S16x3x8192.size a
  inb_S16x8x2x8192_S1x1x2x8192_5_0_0_0 : ∀ a, (![5, 0, 0, 0] : Fin 4 → Nat) a + S1x1x2x8192.size a ≤ S16x8x2x8192.size a
  inb_S16x8x2x8192_S1x1x2x8192_5_1_0_0 : ∀ a, (![5, 1, 0, 0] : Fin 4 → Nat) a + S1x1x2x8192.size a ≤ S16x8x2x8192.size a
  inb_S16x8x2x8192_S1x1x2x8192_5_2_0_0 : ∀ a, (![5, 2, 0, 0] : Fin 4 → Nat) a + S1x1x2x8192.size a ≤ S16x8x2x8192.size a
  inb_S16x8x2x8192_S1x1x2x8192_5_3_0_0 : ∀ a, (![5, 3, 0, 0] : Fin 4 → Nat) a + S1x1x2x8192.size a ≤ S16x8x2x8192.size a
  inb_S16x8x2x8192_S1x1x2x8192_5_4_0_0 : ∀ a, (![5, 4, 0, 0] : Fin 4 → Nat) a + S1x1x2x8192.size a ≤ S16x8x2x8192.size a
  inb_S16x8x2x8192_S1x1x2x8192_5_5_0_0 : ∀ a, (![5, 5, 0, 0] : Fin 4 → Nat) a + S1x1x2x8192.size a ≤ S16x8x2x8192.size a
  inb_S16x8x2x8192_S1x1x2x8192_5_6_0_0 : ∀ a, (![5, 6, 0, 0] : Fin 4 → Nat) a + S1x1x2x8192.size a ≤ S16x8x2x8192.size a
  inb_S16x8x2x8192_S1x1x2x8192_5_7_0_0 : ∀ a, (![5, 7, 0, 0] : Fin 4 → Nat) a + S1x1x2x8192.size a ≤ S16x8x2x8192.size a
  inb_S16x3x8192_S1x1x8192_5_0_0 : ∀ a, (![5, 0, 0] : Fin 3 → Nat) a + S1x1x8192.size a ≤ S16x3x8192.size a
  inb_S16x3x8192_S1x1x8192_5_1_0 : ∀ a, (![5, 1, 0] : Fin 3 → Nat) a + S1x1x8192.size a ≤ S16x3x8192.size a
  inb_S16x3x8192_S1x1x8192_5_2_0 : ∀ a, (![5, 2, 0] : Fin 3 → Nat) a + S1x1x8192.size a ≤ S16x3x8192.size a
  inb_S16x8x2x8192_S1x1x2x8192_6_0_0_0 : ∀ a, (![6, 0, 0, 0] : Fin 4 → Nat) a + S1x1x2x8192.size a ≤ S16x8x2x8192.size a
  inb_S16x8x2x8192_S1x1x2x8192_6_1_0_0 : ∀ a, (![6, 1, 0, 0] : Fin 4 → Nat) a + S1x1x2x8192.size a ≤ S16x8x2x8192.size a
  inb_S16x8x2x8192_S1x1x2x8192_6_2_0_0 : ∀ a, (![6, 2, 0, 0] : Fin 4 → Nat) a + S1x1x2x8192.size a ≤ S16x8x2x8192.size a
  inb_S16x8x2x8192_S1x1x2x8192_6_3_0_0 : ∀ a, (![6, 3, 0, 0] : Fin 4 → Nat) a + S1x1x2x8192.size a ≤ S16x8x2x8192.size a
  inb_S16x8x2x8192_S1x1x2x8192_6_4_0_0 : ∀ a, (![6, 4, 0, 0] : Fin 4 → Nat) a + S1x1x2x8192.size a ≤ S16x8x2x8192.size a
  inb_S16x8x2x8192_S1x1x2x8192_6_5_0_0 : ∀ a, (![6, 5, 0, 0] : Fin 4 → Nat) a + S1x1x2x8192.size a ≤ S16x8x2x8192.size a
  inb_S16x8x2x8192_S1x1x2x8192_6_6_0_0 : ∀ a, (![6, 6, 0, 0] : Fin 4 → Nat) a + S1x1x2x8192.size a ≤ S16x8x2x8192.size a
  inb_S16x8x2x8192_S1x1x2x8192_6_7_0_0 : ∀ a, (![6, 7, 0, 0] : Fin 4 → Nat) a + S1x1x2x8192.size a ≤ S16x8x2x8192.size a
  inb_S16x3x8192_S1x1x8192_6_0_0 : ∀ a, (![6, 0, 0] : Fin 3 → Nat) a + S1x1x8192.size a ≤ S16x3x8192.size a
  inb_S16x3x8192_S1x1x8192_6_1_0 : ∀ a, (![6, 1, 0] : Fin 3 → Nat) a + S1x1x8192.size a ≤ S16x3x8192.size a
  inb_S16x3x8192_S1x1x8192_6_2_0 : ∀ a, (![6, 2, 0] : Fin 3 → Nat) a + S1x1x8192.size a ≤ S16x3x8192.size a
  inb_S16x8x2x8192_S1x1x2x8192_7_0_0_0 : ∀ a, (![7, 0, 0, 0] : Fin 4 → Nat) a + S1x1x2x8192.size a ≤ S16x8x2x8192.size a
  inb_S16x8x2x8192_S1x1x2x8192_7_1_0_0 : ∀ a, (![7, 1, 0, 0] : Fin 4 → Nat) a + S1x1x2x8192.size a ≤ S16x8x2x8192.size a
  inb_S16x8x2x8192_S1x1x2x8192_7_2_0_0 : ∀ a, (![7, 2, 0, 0] : Fin 4 → Nat) a + S1x1x2x8192.size a ≤ S16x8x2x8192.size a
  inb_S16x8x2x8192_S1x1x2x8192_7_3_0_0 : ∀ a, (![7, 3, 0, 0] : Fin 4 → Nat) a + S1x1x2x8192.size a ≤ S16x8x2x8192.size a
  inb_S16x8x2x8192_S1x1x2x8192_7_4_0_0 : ∀ a, (![7, 4, 0, 0] : Fin 4 → Nat) a + S1x1x2x8192.size a ≤ S16x8x2x8192.size a
  inb_S16x8x2x8192_S1x1x2x8192_7_5_0_0 : ∀ a, (![7, 5, 0, 0] : Fin 4 → Nat) a + S1x1x2x8192.size a ≤ S16x8x2x8192.size a
  inb_S16x8x2x8192_S1x1x2x8192_7_6_0_0 : ∀ a, (![7, 6, 0, 0] : Fin 4 → Nat) a + S1x1x2x8192.size a ≤ S16x8x2x8192.size a
  inb_S16x8x2x8192_S1x1x2x8192_7_7_0_0 : ∀ a, (![7, 7, 0, 0] : Fin 4 → Nat) a + S1x1x2x8192.size a ≤ S16x8x2x8192.size a
  inb_S16x3x8192_S1x1x8192_7_0_0 : ∀ a, (![7, 0, 0] : Fin 3 → Nat) a + S1x1x8192.size a ≤ S16x3x8192.size a
  inb_S16x3x8192_S1x1x8192_7_1_0 : ∀ a, (![7, 1, 0] : Fin 3 → Nat) a + S1x1x8192.size a ≤ S16x3x8192.size a
  inb_S16x3x8192_S1x1x8192_7_2_0 : ∀ a, (![7, 2, 0] : Fin 3 → Nat) a + S1x1x8192.size a ≤ S16x3x8192.size a
  inb_S16x8x2x8192_S1x1x2x8192_8_0_0_0 : ∀ a, (![8, 0, 0, 0] : Fin 4 → Nat) a + S1x1x2x8192.size a ≤ S16x8x2x8192.size a
  inb_S16x8x2x8192_S1x1x2x8192_8_1_0_0 : ∀ a, (![8, 1, 0, 0] : Fin 4 → Nat) a + S1x1x2x8192.size a ≤ S16x8x2x8192.size a
  inb_S16x8x2x8192_S1x1x2x8192_8_2_0_0 : ∀ a, (![8, 2, 0, 0] : Fin 4 → Nat) a + S1x1x2x8192.size a ≤ S16x8x2x8192.size a
  inb_S16x8x2x8192_S1x1x2x8192_8_3_0_0 : ∀ a, (![8, 3, 0, 0] : Fin 4 → Nat) a + S1x1x2x8192.size a ≤ S16x8x2x8192.size a
  inb_S16x8x2x8192_S1x1x2x8192_8_4_0_0 : ∀ a, (![8, 4, 0, 0] : Fin 4 → Nat) a + S1x1x2x8192.size a ≤ S16x8x2x8192.size a
  inb_S16x8x2x8192_S1x1x2x8192_8_5_0_0 : ∀ a, (![8, 5, 0, 0] : Fin 4 → Nat) a + S1x1x2x8192.size a ≤ S16x8x2x8192.size a
  inb_S16x8x2x8192_S1x1x2x8192_8_6_0_0 : ∀ a, (![8, 6, 0, 0] : Fin 4 → Nat) a + S1x1x2x8192.size a ≤ S16x8x2x8192.size a
  inb_S16x8x2x8192_S1x1x2x8192_8_7_0_0 : ∀ a, (![8, 7, 0, 0] : Fin 4 → Nat) a + S1x1x2x8192.size a ≤ S16x8x2x8192.size a
  inb_S16x3x8192_S1x1x8192_8_0_0 : ∀ a, (![8, 0, 0] : Fin 3 → Nat) a + S1x1x8192.size a ≤ S16x3x8192.size a
  inb_S16x3x8192_S1x1x8192_8_1_0 : ∀ a, (![8, 1, 0] : Fin 3 → Nat) a + S1x1x8192.size a ≤ S16x3x8192.size a
  inb_S16x3x8192_S1x1x8192_8_2_0 : ∀ a, (![8, 2, 0] : Fin 3 → Nat) a + S1x1x8192.size a ≤ S16x3x8192.size a
  inb_S16x8x2x8192_S1x1x2x8192_9_0_0_0 : ∀ a, (![9, 0, 0, 0] : Fin 4 → Nat) a + S1x1x2x8192.size a ≤ S16x8x2x8192.size a
  inb_S16x8x2x8192_S1x1x2x8192_9_1_0_0 : ∀ a, (![9, 1, 0, 0] : Fin 4 → Nat) a + S1x1x2x8192.size a ≤ S16x8x2x8192.size a
  inb_S16x8x2x8192_S1x1x2x8192_9_2_0_0 : ∀ a, (![9, 2, 0, 0] : Fin 4 → Nat) a + S1x1x2x8192.size a ≤ S16x8x2x8192.size a
  inb_S16x8x2x8192_S1x1x2x8192_9_3_0_0 : ∀ a, (![9, 3, 0, 0] : Fin 4 → Nat) a + S1x1x2x8192.size a ≤ S16x8x2x8192.size a
  inb_S16x8x2x8192_S1x1x2x8192_9_4_0_0 : ∀ a, (![9, 4, 0, 0] : Fin 4 → Nat) a + S1x1x2x8192.size a ≤ S16x8x2x8192.size a
  inb_S16x8x2x8192_S1x1x2x8192_9_5_0_0 : ∀ a, (![9, 5, 0, 0] : Fin 4 → Nat) a + S1x1x2x8192.size a ≤ S16x8x2x8192.size a
  inb_S16x8x2x8192_S1x1x2x8192_9_6_0_0 : ∀ a, (![9, 6, 0, 0] : Fin 4 → Nat) a + S1x1x2x8192.size a ≤ S16x8x2x8192.size a
  inb_S16x8x2x8192_S1x1x2x8192_9_7_0_0 : ∀ a, (![9, 7, 0, 0] : Fin 4 → Nat) a + S1x1x2x8192.size a ≤ S16x8x2x8192.size a
  inb_S16x3x8192_S1x1x8192_9_0_0 : ∀ a, (![9, 0, 0] : Fin 3 → Nat) a + S1x1x8192.size a ≤ S16x3x8192.size a
  inb_S16x3x8192_S1x1x8192_9_1_0 : ∀ a, (![9, 1, 0] : Fin 3 → Nat) a + S1x1x8192.size a ≤ S16x3x8192.size a
  inb_S16x3x8192_S1x1x8192_9_2_0 : ∀ a, (![9, 2, 0] : Fin 3 → Nat) a + S1x1x8192.size a ≤ S16x3x8192.size a
  inb_S16x8x2x8192_S1x1x2x8192_10_0_0_0 : ∀ a, (![10, 0, 0, 0] : Fin 4 → Nat) a + S1x1x2x8192.size a ≤ S16x8x2x8192.size a
  inb_S16x8x2x8192_S1x1x2x8192_10_1_0_0 : ∀ a, (![10, 1, 0, 0] : Fin 4 → Nat) a + S1x1x2x8192.size a ≤ S16x8x2x8192.size a
  inb_S16x8x2x8192_S1x1x2x8192_10_2_0_0 : ∀ a, (![10, 2, 0, 0] : Fin 4 → Nat) a + S1x1x2x8192.size a ≤ S16x8x2x8192.size a
  inb_S16x8x2x8192_S1x1x2x8192_10_3_0_0 : ∀ a, (![10, 3, 0, 0] : Fin 4 → Nat) a + S1x1x2x8192.size a ≤ S16x8x2x8192.size a
  inb_S16x8x2x8192_S1x1x2x8192_10_4_0_0 : ∀ a, (![10, 4, 0, 0] : Fin 4 → Nat) a + S1x1x2x8192.size a ≤ S16x8x2x8192.size a
  inb_S16x8x2x8192_S1x1x2x8192_10_5_0_0 : ∀ a, (![10, 5, 0, 0] : Fin 4 → Nat) a + S1x1x2x8192.size a ≤ S16x8x2x8192.size a
  inb_S16x8x2x8192_S1x1x2x8192_10_6_0_0 : ∀ a, (![10, 6, 0, 0] : Fin 4 → Nat) a + S1x1x2x8192.size a ≤ S16x8x2x8192.size a
  inb_S16x8x2x8192_S1x1x2x8192_10_7_0_0 : ∀ a, (![10, 7, 0, 0] : Fin 4 → Nat) a + S1x1x2x8192.size a ≤ S16x8x2x8192.size a
  inb_S16x3x8192_S1x1x8192_10_0_0 : ∀ a, (![10, 0, 0] : Fin 3 → Nat) a + S1x1x8192.size a ≤ S16x3x8192.size a
  inb_S16x3x8192_S1x1x8192_10_1_0 : ∀ a, (![10, 1, 0] : Fin 3 → Nat) a + S1x1x8192.size a ≤ S16x3x8192.size a
  inb_S16x3x8192_S1x1x8192_10_2_0 : ∀ a, (![10, 2, 0] : Fin 3 → Nat) a + S1x1x8192.size a ≤ S16x3x8192.size a
  inb_S16x8x2x8192_S1x1x2x8192_11_0_0_0 : ∀ a, (![11, 0, 0, 0] : Fin 4 → Nat) a + S1x1x2x8192.size a ≤ S16x8x2x8192.size a
  inb_S16x8x2x8192_S1x1x2x8192_11_1_0_0 : ∀ a, (![11, 1, 0, 0] : Fin 4 → Nat) a + S1x1x2x8192.size a ≤ S16x8x2x8192.size a
  inb_S16x8x2x8192_S1x1x2x8192_11_2_0_0 : ∀ a, (![11, 2, 0, 0] : Fin 4 → Nat) a + S1x1x2x8192.size a ≤ S16x8x2x8192.size a
  inb_S16x8x2x8192_S1x1x2x8192_11_3_0_0 : ∀ a, (![11, 3, 0, 0] : Fin 4 → Nat) a + S1x1x2x8192.size a ≤ S16x8x2x8192.size a
  inb_S16x8x2x8192_S1x1x2x8192_11_4_0_0 : ∀ a, (![11, 4, 0, 0] : Fin 4 → Nat) a + S1x1x2x8192.size a ≤ S16x8x2x8192.size a
  inb_S16x8x2x8192_S1x1x2x8192_11_5_0_0 : ∀ a, (![11, 5, 0, 0] : Fin 4 → Nat) a + S1x1x2x8192.size a ≤ S16x8x2x8192.size a
  inb_S16x8x2x8192_S1x1x2x8192_11_6_0_0 : ∀ a, (![11, 6, 0, 0] : Fin 4 → Nat) a + S1x1x2x8192.size a ≤ S16x8x2x8192.size a
  inb_S16x8x2x8192_S1x1x2x8192_11_7_0_0 : ∀ a, (![11, 7, 0, 0] : Fin 4 → Nat) a + S1x1x2x8192.size a ≤ S16x8x2x8192.size a
  inb_S16x3x8192_S1x1x8192_11_0_0 : ∀ a, (![11, 0, 0] : Fin 3 → Nat) a + S1x1x8192.size a ≤ S16x3x8192.size a
  inb_S16x3x8192_S1x1x8192_11_1_0 : ∀ a, (![11, 1, 0] : Fin 3 → Nat) a + S1x1x8192.size a ≤ S16x3x8192.size a
  inb_S16x3x8192_S1x1x8192_11_2_0 : ∀ a, (![11, 2, 0] : Fin 3 → Nat) a + S1x1x8192.size a ≤ S16x3x8192.size a
  inb_S16x8x2x8192_S1x1x2x8192_12_0_0_0 : ∀ a, (![12, 0, 0, 0] : Fin 4 → Nat) a + S1x1x2x8192.size a ≤ S16x8x2x8192.size a
  inb_S16x8x2x8192_S1x1x2x8192_12_1_0_0 : ∀ a, (![12, 1, 0, 0] : Fin 4 → Nat) a + S1x1x2x8192.size a ≤ S16x8x2x8192.size a
  inb_S16x8x2x8192_S1x1x2x8192_12_2_0_0 : ∀ a, (![12, 2, 0, 0] : Fin 4 → Nat) a + S1x1x2x8192.size a ≤ S16x8x2x8192.size a
  inb_S16x8x2x8192_S1x1x2x8192_12_3_0_0 : ∀ a, (![12, 3, 0, 0] : Fin 4 → Nat) a + S1x1x2x8192.size a ≤ S16x8x2x8192.size a
  inb_S16x8x2x8192_S1x1x2x8192_12_4_0_0 : ∀ a, (![12, 4, 0, 0] : Fin 4 → Nat) a + S1x1x2x8192.size a ≤ S16x8x2x8192.size a
  inb_S16x8x2x8192_S1x1x2x8192_12_5_0_0 : ∀ a, (![12, 5, 0, 0] : Fin 4 → Nat) a + S1x1x2x8192.size a ≤ S16x8x2x8192.size a
  inb_S16x8x2x8192_S1x1x2x8192_12_6_0_0 : ∀ a, (![12, 6, 0, 0] : Fin 4 → Nat) a + S1x1x2x8192.size a ≤ S16x8x2x8192.size a
  inb_S16x8x2x8192_S1x1x2x8192_12_7_0_0 : ∀ a, (![12, 7, 0, 0] : Fin 4 → Nat) a + S1x1x2x8192.size a ≤ S16x8x2x8192.size a
  inb_S16x3x8192_S1x1x8192_12_0_0 : ∀ a, (![12, 0, 0] : Fin 3 → Nat) a + S1x1x8192.size a ≤ S16x3x8192.size a
  inb_S16x3x8192_S1x1x8192_12_1_0 : ∀ a, (![12, 1, 0] : Fin 3 → Nat) a + S1x1x8192.size a ≤ S16x3x8192.size a
  inb_S16x3x8192_S1x1x8192_12_2_0 : ∀ a, (![12, 2, 0] : Fin 3 → Nat) a + S1x1x8192.size a ≤ S16x3x8192.size a
  inb_S16x8x2x8192_S1x1x2x8192_13_0_0_0 : ∀ a, (![13, 0, 0, 0] : Fin 4 → Nat) a + S1x1x2x8192.size a ≤ S16x8x2x8192.size a
  inb_S16x8x2x8192_S1x1x2x8192_13_1_0_0 : ∀ a, (![13, 1, 0, 0] : Fin 4 → Nat) a + S1x1x2x8192.size a ≤ S16x8x2x8192.size a
  inb_S16x8x2x8192_S1x1x2x8192_13_2_0_0 : ∀ a, (![13, 2, 0, 0] : Fin 4 → Nat) a + S1x1x2x8192.size a ≤ S16x8x2x8192.size a
  inb_S16x8x2x8192_S1x1x2x8192_13_3_0_0 : ∀ a, (![13, 3, 0, 0] : Fin 4 → Nat) a + S1x1x2x8192.size a ≤ S16x8x2x8192.size a
  inb_S16x8x2x8192_S1x1x2x8192_13_4_0_0 : ∀ a, (![13, 4, 0, 0] : Fin 4 → Nat) a + S1x1x2x8192.size a ≤ S16x8x2x8192.size a
  inb_S16x8x2x8192_S1x1x2x8192_13_5_0_0 : ∀ a, (![13, 5, 0, 0] : Fin 4 → Nat) a + S1x1x2x8192.size a ≤ S16x8x2x8192.size a
  inb_S16x8x2x8192_S1x1x2x8192_13_6_0_0 : ∀ a, (![13, 6, 0, 0] : Fin 4 → Nat) a + S1x1x2x8192.size a ≤ S16x8x2x8192.size a
  inb_S16x8x2x8192_S1x1x2x8192_13_7_0_0 : ∀ a, (![13, 7, 0, 0] : Fin 4 → Nat) a + S1x1x2x8192.size a ≤ S16x8x2x8192.size a
  inb_S16x3x8192_S1x1x8192_13_0_0 : ∀ a, (![13, 0, 0] : Fin 3 → Nat) a + S1x1x8192.size a ≤ S16x3x8192.size a
  inb_S16x3x8192_S1x1x8192_13_1_0 : ∀ a, (![13, 1, 0] : Fin 3 → Nat) a + S1x1x8192.size a ≤ S16x3x8192.size a
  inb_S16x3x8192_S1x1x8192_13_2_0 : ∀ a, (![13, 2, 0] : Fin 3 → Nat) a + S1x1x8192.size a ≤ S16x3x8192.size a
  inb_S16x8x2x8192_S1x1x2x8192_14_0_0_0 : ∀ a, (![14, 0, 0, 0] : Fin 4 → Nat) a + S1x1x2x8192.size a ≤ S16x8x2x8192.size a
  inb_S16x8x2x8192_S1x1x2x8192_14_1_0_0 : ∀ a, (![14, 1, 0, 0] : Fin 4 → Nat) a + S1x1x2x8192.size a ≤ S16x8x2x8192.size a
  inb_S16x8x2x8192_S1x1x2x8192_14_2_0_0 : ∀ a, (![14, 2, 0, 0] : Fin 4 → Nat) a + S1x1x2x8192.size a ≤ S16x8x2x8192.size a
  inb_S16x8x2x8192_S1x1x2x8192_14_3_0_0 : ∀ a, (![14, 3, 0, 0] : Fin 4 → Nat) a + S1x1x2x8192.size a ≤ S16x8x2x8192.size a
  inb_S16x8x2x8192_S1x1x2x8192_14_4_0_0 : ∀ a, (![14, 4, 0, 0] : Fin 4 → Nat) a + S1x1x2x8192.size a ≤ S16x8x2x8192.size a
  inb_S16x8x2x8192_S1x1x2x8192_14_5_0_0 : ∀ a, (![14, 5, 0, 0] : Fin 4 → Nat) a + S1x1x2x8192.size a ≤ S16x8x2x8192.size a
  inb_S16x8x2x8192_S1x1x2x8192_14_6_0_0 : ∀ a, (![14, 6, 0, 0] : Fin 4 → Nat) a + S1x1x2x8192.size a ≤ S16x8x2x8192.size a
  inb_S16x8x2x8192_S1x1x2x8192_14_7_0_0 : ∀ a, (![14, 7, 0, 0] : Fin 4 → Nat) a + S1x1x2x8192.size a ≤ S16x8x2x8192.size a
  inb_S16x3x8192_S1x1x8192_14_0_0 : ∀ a, (![14, 0, 0] : Fin 3 → Nat) a + S1x1x8192.size a ≤ S16x3x8192.size a
  inb_S16x3x8192_S1x1x8192_14_1_0 : ∀ a, (![14, 1, 0] : Fin 3 → Nat) a + S1x1x8192.size a ≤ S16x3x8192.size a
  inb_S16x3x8192_S1x1x8192_14_2_0 : ∀ a, (![14, 2, 0] : Fin 3 → Nat) a + S1x1x8192.size a ≤ S16x3x8192.size a
  inb_S16x8x2x8192_S1x1x2x8192_15_0_0_0 : ∀ a, (![15, 0, 0, 0] : Fin 4 → Nat) a + S1x1x2x8192.size a ≤ S16x8x2x8192.size a
  inb_S16x8x2x8192_S1x1x2x8192_15_1_0_0 : ∀ a, (![15, 1, 0, 0] : Fin 4 → Nat) a + S1x1x2x8192.size a ≤ S16x8x2x8192.size a
  inb_S16x8x2x8192_S1x1x2x8192_15_2_0_0 : ∀ a, (![15, 2, 0, 0] : Fin 4 → Nat) a + S1x1x2x8192.size a ≤ S16x8x2x8192.size a
  inb_S16x8x2x8192_S1x1x2x8192_15_3_0_0 : ∀ a, (![15, 3, 0, 0] : Fin 4 → Nat) a + S1x1x2x8192.size a ≤ S16x8x2x8192.size a
  inb_S16x8x2x8192_S1x1x2x8192_15_4_0_0 : ∀ a, (![15, 4, 0, 0] : Fin 4 → Nat) a + S1x1x2x8192.size a ≤ S16x8x2x8192.size a
  inb_S16x8x2x8192_S1x1x2x8192_15_5_0_0 : ∀ a, (![15, 5, 0, 0] : Fin 4 → Nat) a + S1x1x2x8192.size a ≤ S16x8x2x8192.size a
  inb_S16x8x2x8192_S1x1x2x8192_15_6_0_0 : ∀ a, (![15, 6, 0, 0] : Fin 4 → Nat) a + S1x1x2x8192.size a ≤ S16x8x2x8192.size a
  inb_S16x8x2x8192_S1x1x2x8192_15_7_0_0 : ∀ a, (![15, 7, 0, 0] : Fin 4 → Nat) a + S1x1x2x8192.size a ≤ S16x8x2x8192.size a
  inb_S16x3x8192_S1x1x8192_15_0_0 : ∀ a, (![15, 0, 0] : Fin 3 → Nat) a + S1x1x8192.size a ≤ S16x3x8192.size a
  inb_S16x3x8192_S1x1x8192_15_1_0 : ∀ a, (![15, 1, 0] : Fin 3 → Nat) a + S1x1x8192.size a ≤ S16x3x8192.size a
  inb_S16x3x8192_S1x1x8192_15_2_0 : ∀ a, (![15, 2, 0] : Fin 3 → Nat) a + S1x1x8192.size a ≤ S16x3x8192.size a
  concatenates_S2x8192_S2x8192_S2x8192_S2x8192_S2x8192_S2x8192_S2x8192_S2x8192_S2x8192_S2x8192_S2x8192_S2x8192_S2x8192_S2x8192_S2x8192_S2x8192_S32x8192_d0 : Shape.Concatenates [S2x8192, S2x8192, S2x8192, S2x8192, S2x8192, S2x8192, S2x8192, S2x8192, S2x8192, S2x8192, S2x8192, S2x8192, S2x8192, S2x8192, S2x8192, S2x8192] S32x8192 0
  transposes_S32x8192_p1_0_S8192x32 : S32x8192.Transposes [1, 0] S8192x32
  inb_S8192x32_S8192x32_0_0 : ∀ a, (![0, 0] : Fin 2 → Nat) a + S8192x32.size a ≤ S8192x32.size a
  h_S8192x32 : 0 < S8192x32.numel
  gather_S8388608_S16x8x524288x1_S16x8x524288_n_0_n_n_0_3_1_wf : GatherDims.WF S8388608 S16x8x524288x1 S16x8x524288 [] [0] [] [0] [] 3 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x8192.size a ≤ S3x524288.size a
  hwx0_0 : ∀ i : grid0.Coords, EltTy.bits .f32 = 32 ∨ (Rect.block (s := S3x524288) S3x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .f32 = 32 ∨ (Rect.block (s := S16x128) S16x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x8x8192.size a ≤ S16x8x524288.size a
  hwx0_2 : ∀ i : grid0.Coords, EltTy.bits .i32 = 32 ∨ (Rect.block (s := S16x8x524288) S16x8x8192.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x3x8192.size a ≤ S16x3x524288.size a
  hwx0_3 : ∀ i : grid0.Coords, EltTy.bits .f32 = 32 ∨ (Rect.block (s := S16x3x524288) S16x3x8192.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x8x2x8192.size a ≤ S16x8x2x524288.size a
  hwx1_0 : ∀ i : grid1.Coords, EltTy.bits .f32 = 32 ∨ (Rect.block (s := S16x8x2x524288) S16x8x2x8192.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x3x8192.size a ≤ S16x3x524288.size a
  hwx1_1 : ∀ i : grid1.Coords, EltTy.bits .f32 = 32 ∨ (Rect.block (s := S16x3x524288) S16x3x8192.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x32.size a ≤ S524288x32.size a
  hwx1_2 : ∀ i : grid1.Coords, EltTy.bits .f32 = 32 ∨ (Rect.block (s := S524288x32) S8192x32.size (cc1_transform_2 i) (hinb1_2 i)).WholeWords (EltTy.packing .f32)

variable [Facts₀]

def gather_S8388608_S16x8x524288x1_S16x8x524288_n_0_n_n_0_3_1 : GatherDims S8388608 S16x8x524288x1 S16x8x524288 where
  offsetDims := []
  collapsedSliceDims := [0]
  operandBatchingDims := []
  startIndicesBatchingDims := []
  startIndexMap := [0]
  indexVectorDim := 3
  sliceSizes := ![1]
  wf := gather_S8388608_S16x8x524288x1_S16x8x524288_n_0_n_n_0_3_1_wf

abbrev win0_0 : Pipeline.Window sig grid0 :=
  Pipeline.Window.ofSpec (Memref.whole main_v0) S3x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S16x8x8192.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S16x3x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S16x8x2x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_1) S16x3x8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S8192x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S524288x3 : Shape := ⟨2, ![524288, 3]⟩
abbrev S8388608x2 : Shape := ⟨2, ![8388608, 2]⟩
abbrev S16 : Shape := ⟨1, ![16]⟩
abbrev S3 : Shape := ⟨1, ![3]⟩
abbrev S524288x1x3 : Shape := ⟨3, ![524288, 1, 3]⟩
abbrev S1x16x1 : Shape := ⟨3, ![1, 16, 1]⟩
abbrev S524288x16x3 : Shape := ⟨3, ![524288, 16, 3]⟩
abbrev S524288x16x1 : Shape := ⟨3, ![524288, 16, 1]⟩
abbrev S524288x16 : Shape := ⟨2, ![524288, 16]⟩
abbrev S1x1x3 : Shape := ⟨3, ![1, 1, 3]⟩
abbrev S_ : Shape := ⟨0, ![]⟩
abbrev S1x16 : Shape := ⟨2, ![1, 16]⟩
abbrev S524288x16x2 : Shape := ⟨3, ![524288, 16, 2]⟩
abbrev S524288x32 : Shape := ⟨2, ![524288, 32]⟩

abbrev nBuf : Space → Nat
  | .hbm => 374
  | .vmem => 0
  | .smem => 0
  | _ => 0

abbrev hbmTy0_0 (i : Nat) : BufTy := match i % 128 with
  | 0 => ⟨S524288x3, .f32⟩
  | 1 => ⟨S8388608x2, .f32⟩
  | 2 => ⟨S16, .f32⟩
  | 3 => ⟨S3, .i32⟩
  | 4 => ⟨S16, .i32⟩
  | 5 => ⟨S524288x1x3, .f32⟩
  | 6 => ⟨S1x16x1, .f32⟩
  | 7 => ⟨S524288x16x3, .f32⟩
  | 8 => ⟨S524288x16x3, .f32⟩
  | 9 => ⟨S524288x16x3, .f32⟩
  | 10 => ⟨S524288x16x3, .f32⟩
  | 11 => ⟨S524288x16x3, .i32⟩
  | 12 => ⟨S524288x16x3, .f32⟩
  | 13 => ⟨S524288x16x3, .i32⟩
  | 14 => ⟨S524288x16x3, .f32⟩
  | 15 => ⟨S524288x16x3, .f32⟩
  | 16 => ⟨S524288x16x3, .i32⟩
  | 17 => ⟨S524288x16x3, .i32⟩
  | 18 => ⟨S524288x16x1, .i32⟩
  | 19 => ⟨S524288x16, .i32⟩
  | 20 => ⟨S524288x16x1, .i32⟩
  | 21 => ⟨S524288x16, .i32⟩
  | 22 => ⟨S524288x16x1, .i32⟩
  | 23 => ⟨S524288x16, .i32⟩
  | 24 => ⟨S524288x16x1, .i32⟩
  | 25 => ⟨S524288x16x1, .i32⟩
  | 26 => ⟨S524288x16x1, .i32⟩
  | 27 => ⟨S524288x16x3, .i32⟩
  | 28 => ⟨S1x1x3, .i32⟩
  | 29 => ⟨S524288x16x3, .i32⟩
  | 30 => ⟨S524288x16x3, .i32⟩
  | 31 => ⟨S524288x16x1, .i32⟩
  | 32 => ⟨S524288x16, .i32⟩
  | 33 => ⟨S524288x16x1, .i32⟩
  | 34 => ⟨S524288x16, .i32⟩
  | 35 => ⟨S524288x16, .i32⟩
  | 36 => ⟨S524288x16x1, .i32⟩
  | 37 => ⟨S524288x16, .i32⟩
  | 38 => ⟨S524288x16, .i32⟩
  | 39 => ⟨S_, .i32⟩
  | 40 => ⟨S524288x16, .i32⟩
  | 41 => ⟨S524288x16, .i32⟩
  | 42 => ⟨S524288x16, .i32⟩
  | 43 => ⟨S1x16, .i32⟩
  | 44 => ⟨S524288x16, .i32⟩
  | 45 => ⟨S524288x16, .i32⟩
  | 46 => ⟨S_, .i32⟩
  | 47 => ⟨S524288x16, .i32⟩
  | 48 => ⟨S524288x16, .i1⟩
  | 49 => ⟨S_, .i32⟩
  | 50 => ⟨S524288x16, .i32⟩
  | 51 => ⟨S524288x16, .i32⟩
  | 52 => ⟨S524288x16, .i32⟩
  | 53 => ⟨S524288x16x1, .i32⟩
  | 54 => ⟨S524288x16x2, .f32⟩
  | 55 => ⟨S524288x16x1, .i32⟩
  | 56 => ⟨S524288x16, .i32⟩
  | 57 => ⟨S524288x16x1, .i32⟩
  | 58 => ⟨S524288x16, .i32⟩
  | 59 => ⟨S524288x16x1, .i32⟩
  | 60 => ⟨S524288x16, .i32⟩
  | 61 => ⟨S524288x16x1, .i32⟩
  | 62 => ⟨S524288x16x1, .i32⟩
  | 63 => ⟨S524288x16x1, .i32⟩
  | 64 => ⟨S524288x16x3, .i32⟩
  | 65 => ⟨S1x1x3, .i32⟩
  | 66 => ⟨S524288x16x3, .i32⟩
  | 67 => ⟨S524288x16x3, .i32⟩
  | 68 => ⟨S524288x16x1, .i32⟩
  | 69 => ⟨S524288x16, .i32⟩
  | 70 => ⟨S524288x16x1, .i32⟩
  | 71 => ⟨S524288x16, .i32⟩
  | 72 => ⟨S524288x16, .i32⟩
  | 73 => ⟨S524288x16x1, .i32⟩
  | 74 => ⟨S524288x16, .i32⟩
  | 75 => ⟨S524288x16, .i32⟩
  | 76 => ⟨S_, .i32⟩
  | 77 => ⟨S524288x16, .i32⟩
  | 78 => ⟨S524288x16, .i32⟩
  | 79 => ⟨S524288x16, .i32⟩
  | 80 => ⟨S1x16, .i32⟩
  | 81 => ⟨S524288x16, .i32⟩
  | 82 => ⟨S524288x16, .i32⟩
  | 83 => ⟨S_, .i32⟩
  | 84 => ⟨S524288x16, .i32⟩
  | 85 => ⟨S524288x16, .i1⟩
  | 86 => ⟨S_, .i32⟩
  | 87 => ⟨S524288x16, .i32⟩
  | 88 => ⟨S524288x16, .i32⟩
  | 89 => ⟨S524288x16, .i32⟩
  | 90 => ⟨S524288x16x1, .i32⟩
  | 91 => ⟨S524288x16x2, .f32⟩
  | 92 => ⟨S524288x16x1, .i32⟩
  | 93 => ⟨S524288x16, .i32⟩
  | 94 => ⟨S524288x16x1, .i32⟩
  | 95 => ⟨S524288x16, .i32⟩
  | 96 => ⟨S524288x16x1, .i32⟩
  | 97 => ⟨S524288x16, .i32⟩
  | 98 => ⟨S524288x16x1, .i32⟩
  | 99 => ⟨S524288x16x1, .i32⟩
  | 100 => ⟨S524288x16x1, .i32⟩
  | 101 => ⟨S524288x16x3, .i32⟩
  | 102 => ⟨S1x1x3, .i32⟩
  | 103 => ⟨S524288x16x3, .i32⟩
  | 104 => ⟨S524288x16x3, .i32⟩
  | 105 => ⟨S524288x16x1, .i32⟩
  | 106 => ⟨S524288x16, .i32⟩
  | 107 => ⟨S524288x16x1, .i32⟩
  | 108 => ⟨S524288x16, .i32⟩
  | 109 => ⟨S524288x16, .i32⟩
  | 110 => ⟨S524288x16x1, .i32⟩
  | 111 => ⟨S524288x16, .i32⟩
  | 112 => ⟨S524288x16, .i32⟩
  | 113 => ⟨S_, .i32⟩
  | 114 => ⟨S524288x16, .i32⟩
  | 115 => ⟨S524288x16, .i32⟩
  | 116 => ⟨S524288x16, .i32⟩
  | 117 => ⟨S1x16, .i32⟩
  | 118 => ⟨S524288x16, .i32⟩
  | 119 => ⟨S524288x16, .i32⟩
  | 120 => ⟨S_, .i32⟩
  | 121 => ⟨S524288x16, .i32⟩
  | 122 => ⟨S524288x16, .i1⟩
  | 123 => ⟨S_, .i32⟩
  | 124 => ⟨S524288x16, .i32⟩
  | 125 => ⟨S524288x16, .i32⟩
  | 126 => ⟨S524288x16, .i32⟩
  | 127 => ⟨S524288x16x1, .i32⟩
  | _ => ⟨S524288x3, .f32⟩

abbrev hbmTy0_1 (i : Nat) : BufTy := match i % 128 with
  | 0 => ⟨S524288x16x2, .f32⟩
  | 1 => ⟨S524288x16x1, .i32⟩
  | 2 => ⟨S524288x16, .i32⟩
  | 3 => ⟨S524288x16x1, .i32⟩
  | 4 => ⟨S524288x16, .i32⟩
  | 5 => ⟨S524288x16x1, .i32⟩
  | 6 => ⟨S524288x16, .i32⟩
  | 7 => ⟨S524288x16x1, .i32⟩
  | 8 => ⟨S524288x16x1, .i32⟩
  | 9 => ⟨S524288x16x1, .i32⟩
  | 10 => ⟨S524288x16x3, .i32⟩
  | 11 => ⟨S1x1x3, .i32⟩
  | 12 => ⟨S524288x16x3, .i32⟩
  | 13 => ⟨S524288x16x3, .i32⟩
  | 14 => ⟨S524288x16x1, .i32⟩
  | 15 => ⟨S524288x16, .i32⟩
  | 16 => ⟨S524288x16x1, .i32⟩
  | 17 => ⟨S524288x16, .i32⟩
  | 18 => ⟨S524288x16, .i32⟩
  | 19 => ⟨S524288x16x1, .i32⟩
  | 20 => ⟨S524288x16, .i32⟩
  | 21 => ⟨S524288x16, .i32⟩
  | 22 => ⟨S_, .i32⟩
  | 23 => ⟨S524288x16, .i32⟩
  | 24 => ⟨S524288x16, .i32⟩
  | 25 => ⟨S524288x16, .i32⟩
  | 26 => ⟨S1x16, .i32⟩
  | 27 => ⟨S524288x16, .i32⟩
  | 28 => ⟨S524288x16, .i32⟩
  | 29 => ⟨S_, .i32⟩
  | 30 => ⟨S524288x16, .i32⟩
  | 31 => ⟨S524288x16, .i1⟩
  | 32 => ⟨S_, .i32⟩
  | 33 => ⟨S524288x16, .i32⟩
  | 34 => ⟨S524288x16, .i32⟩
  | 35 => ⟨S524288x16, .i32⟩
  | 36 => ⟨S524288x16x1, .i32⟩
  | 37 => ⟨S524288x16x2, .f32⟩
  | 38 => ⟨S524288x16x1, .i32⟩
  | 39 => ⟨S524288x16, .i32⟩
  | 40 => ⟨S524288x16x1, .i32⟩
  | 41 => ⟨S524288x16, .i32⟩
  | 42 => ⟨S524288x16x1, .i32⟩
  | 43 => ⟨S524288x16, .i32⟩
  | 44 => ⟨S524288x16x1, .i32⟩
  | 45 => ⟨S524288x16x1, .i32⟩
  | 46 => ⟨S524288x16x1, .i32⟩
  | 47 => ⟨S524288x16x3, .i32⟩
  | 48 => ⟨S1x1x3, .i32⟩
  | 49 => ⟨S524288x16x3, .i32⟩
  | 50 => ⟨S524288x16x3, .i32⟩
  | 51 => ⟨S524288x16x1, .i32⟩
  | 52 => ⟨S524288x16, .i32⟩
  | 53 => ⟨S524288x16x1, .i32⟩
  | 54 => ⟨S524288x16, .i32⟩
  | 55 => ⟨S524288x16, .i32⟩
  | 56 => ⟨S524288x16x1, .i32⟩
  | 57 => ⟨S524288x16, .i32⟩
  | 58 => ⟨S524288x16, .i32⟩
  | 59 => ⟨S_, .i32⟩
  | 60 => ⟨S524288x16, .i32⟩
  | 61 => ⟨S524288x16, .i32⟩
  | 62 => ⟨S524288x16, .i32⟩
  | 63 => ⟨S1x16, .i32⟩
  | 64 => ⟨S524288x16, .i32⟩
  | 65 => ⟨S524288x16, .i32⟩
  | 66 => ⟨S_, .i32⟩
  | 67 => ⟨S524288x16, .i32⟩
  | 68 => ⟨S524288x16, .i1⟩
  | 69 => ⟨S_, .i32⟩
  | 70 => ⟨S524288x16, .i32⟩
  | 71 => ⟨S524288x16, .i32⟩
  | 72 => ⟨S524288x16, .i32⟩
  | 73 => ⟨S524288x16x1, .i32⟩
  | 74 => ⟨S524288x16x2, .f32⟩
  | 75 => ⟨S524288x16x1, .i32⟩
  | 76 => ⟨S524288x16, .i32⟩
  | 77 => ⟨S524288x16x1, .i32⟩
  | 78 => ⟨S524288x16, .i32⟩
  | 79 => ⟨S524288x16x1, .i32⟩
  | 80 => ⟨S524288x16, .i32⟩
  | 81 => ⟨S524288x16x1, .i32⟩
  | 82 => ⟨S524288x16x1, .i32⟩
  | 83 => ⟨S524288x16x1, .i32⟩
  | 84 => ⟨S524288x16x3, .i32⟩
  | 85 => ⟨S1x1x3, .i32⟩
  | 86 => ⟨S524288x16x3, .i32⟩
  | 87 => ⟨S524288x16x3, .i32⟩
  | 88 => ⟨S524288x16x1, .i32⟩
  | 89 => ⟨S524288x16, .i32⟩
  | 90 => ⟨S524288x16x1, .i32⟩
  | 91 => ⟨S524288x16, .i32⟩
  | 92 => ⟨S524288x16, .i32⟩
  | 93 => ⟨S524288x16x1, .i32⟩
  | 94 => ⟨S524288x16, .i32⟩
  | 95 => ⟨S524288x16, .i32⟩
  | 96 => ⟨S_, .i32⟩
  | 97 => ⟨S524288x16, .i32⟩
  | 98 => ⟨S524288x16, .i32⟩
  | 99 => ⟨S524288x16, .i32⟩
  | 100 => ⟨S1x16, .i32⟩
  | 101 => ⟨S524288x16, .i32⟩
  | 102 => ⟨S524288x16, .i32⟩
  | 103 => ⟨S_, .i32⟩
  | 104 => ⟨S524288x16, .i32⟩
  | 105 => ⟨S524288x16, .i1⟩
  | 106 => ⟨S_, .i32⟩
  | 107 => ⟨S524288x16, .i32⟩
  | 108 => ⟨S524288x16, .i32⟩
  | 109 => ⟨S524288x16, .i32⟩
  | 110 => ⟨S524288x16x1, .i32⟩
  | 111 => ⟨S524288x16x2, .f32⟩
  | 112 => ⟨S524288x16x1, .i32⟩
  | 113 => ⟨S524288x16, .i32⟩
  | 114 => ⟨S524288x16x1, .i32⟩
  | 115 => ⟨S524288x16, .i32⟩
  | 116 => ⟨S524288x16x1, .i32⟩
  | 117 => ⟨S524288x16, .i32⟩
  | 118 => ⟨S524288x16x1, .i32⟩
  | 119 => ⟨S524288x16x1, .i32⟩
  | 120 => ⟨S524288x16x1, .i32⟩
  | 121 => ⟨S524288x16x3, .i32⟩
  | 122 => ⟨S1x1x3, .i32⟩
  | 123 => ⟨S524288x16x3, .i32⟩
  | 124 => ⟨S524288x16x3, .i32⟩
  | 125 => ⟨S524288x16x1, .i32⟩
  | 126 => ⟨S524288x16, .i32⟩
  | 127 => ⟨S524288x16x1, .i32⟩
  | _ => ⟨S524288x3, .f32⟩

abbrev hbmTy0_2 (i : Nat) : BufTy := match i % 128 with
  | 0 => ⟨S524288x16, .i32⟩
  | 1 => ⟨S524288x16, .i32⟩
  | 2 => ⟨S524288x16x1, .i32⟩
  | 3 => ⟨S524288x16, .i32⟩
  | 4 => ⟨S524288x16, .i32⟩
  | 5 => ⟨S_, .i32⟩
  | 6 => ⟨S524288x16, .i32⟩
  | 7 => ⟨S524288x16, .i32⟩
  | 8 => ⟨S524288x16, .i32⟩
  | 9 => ⟨S1x16, .i32⟩
  | 10 => ⟨S524288x16, .i32⟩
  | 11 => ⟨S524288x16, .i32⟩
  | 12 => ⟨S_, .i32⟩
  | 13 => ⟨S524288x16, .i32⟩
  | 14 => ⟨S524288x16, .i1⟩
  | 15 => ⟨S_, .i32⟩
  | 16 => ⟨S524288x16, .i32⟩
  | 17 => ⟨S524288x16, .i32⟩
  | 18 => ⟨S524288x16, .i32⟩
  | 19 => ⟨S524288x16x1, .i32⟩
  | 20 => ⟨S524288x16x2, .f32⟩
  | 21 => ⟨S524288x16x1, .i32⟩
  | 22 => ⟨S524288x16, .i32⟩
  | 23 => ⟨S524288x16x1, .i32⟩
  | 24 => ⟨S524288x16, .i32⟩
  | 25 => ⟨S524288x16x1, .i32⟩
  | 26 => ⟨S524288x16, .i32⟩
  | 27 => ⟨S524288x16x1, .i32⟩
  | 28 => ⟨S524288x16x1, .i32⟩
  | 29 => ⟨S524288x16x1, .i32⟩
  | 30 => ⟨S524288x16x3, .i32⟩
  | 31 => ⟨S1x1x3, .i32⟩
  | 32 => ⟨S524288x16x3, .i32⟩
  | 33 => ⟨S524288x16x3, .i32⟩
  | 34 => ⟨S524288x16x1, .i32⟩
  | 35 => ⟨S524288x16, .i32⟩
  | 36 => ⟨S524288x16x1, .i32⟩
  | 37 => ⟨S524288x16, .i32⟩
  | 38 => ⟨S524288x16, .i32⟩
  | 39 => ⟨S524288x16x1, .i32⟩
  | 40 => ⟨S524288x16, .i32⟩
  | 41 => ⟨S524288x16, .i32⟩
  | 42 => ⟨S_, .i32⟩
  | 43 => ⟨S524288x16, .i32⟩
  | 44 => ⟨S524288x16, .i32⟩
  | 45 => ⟨S524288x16, .i32⟩
  | 46 => ⟨S1x16, .i32⟩
  | 47 => ⟨S524288x16, .i32⟩
  | 48 => ⟨S524288x16, .i32⟩
  | 49 => ⟨S_, .i32⟩
  | 50 => ⟨S524288x16, .i32⟩
  | 51 => ⟨S524288x16, .i1⟩
  | 52 => ⟨S_, .i32⟩
  | 53 => ⟨S524288x16, .i32⟩
  | 54 => ⟨S524288x16, .i32⟩
  | 55 => ⟨S524288x16, .i32⟩
  | 56 => ⟨S524288x16x1, .i32⟩
  | 57 => ⟨S524288x16x2, .f32⟩
  | 58 => ⟨S524288x16x1, .f32⟩
  | 59 => ⟨S524288x16x1, .f32⟩
  | 60 => ⟨S524288x16x1, .f32⟩
  | 61 => ⟨S524288x16x2, .f32⟩
  | 62 => ⟨S524288x16x2, .f32⟩
  | 63 => ⟨S_, .f32⟩
  | 64 => ⟨S524288x16x1, .f32⟩
  | 65 => ⟨S524288x16x1, .f32⟩
  | 66 => ⟨S524288x16x2, .f32⟩
  | 67 => ⟨S524288x16x2, .f32⟩
  | 68 => ⟨S524288x16x2, .f32⟩
  | 69 => ⟨S524288x16x2, .f32⟩
  | 70 => ⟨S524288x16x2, .f32⟩
  | 71 => ⟨S_, .f32⟩
  | 72 => ⟨S524288x16x1, .f32⟩
  | 73 => ⟨S524288x16x1, .f32⟩
  | 74 => ⟨S524288x16x2, .f32⟩
  | 75 => ⟨S524288x16x2, .f32⟩
  | 76 => ⟨S524288x16x2, .f32⟩
  | 77 => ⟨S524288x16x2, .f32⟩
  | 78 => ⟨S524288x16x2, .f32⟩
  | 79 => ⟨S_, .f32⟩
  | 80 => ⟨S524288x16x1, .f32⟩
  | 81 => ⟨S524288x16x1, .f32⟩
  | 82 => ⟨S524288x16x2, .f32⟩
  | 83 => ⟨S524288x16x2, .f32⟩
  | 84 => ⟨S524288x16x2, .f32⟩
  | 85 => ⟨S524288x16x2, .f32⟩
  | 86 => ⟨S524288x16x2, .f32⟩
  | 87 => ⟨S_, .f32⟩
  | 88 => ⟨S524288x16x1, .f32⟩
  | 89 => ⟨S524288x16x1, .f32⟩
  | 90 => ⟨S524288x16x2, .f32⟩
  | 91 => ⟨S524288x16x2, .f32⟩
  | 92 => ⟨S524288x16x2, .f32⟩
  | 93 => ⟨S524288x16x2, .f32⟩
  | 94 => ⟨S524288x16x2, .f32⟩
  | 95 => ⟨S_, .f32⟩
  | 96 => ⟨S524288x16x1, .f32⟩
  | 97 => ⟨S524288x16x1, .f32⟩
  | 98 => ⟨S524288x16x2, .f32⟩
  | 99 => ⟨S524288x16x2, .f32⟩
  | 100 => ⟨S524288x16x2, .f32⟩
  | 101 => ⟨S524288x16x2, .f32⟩
  | 102 => ⟨S524288x16x2, .f32⟩
  | 103 => ⟨S_, .f32⟩
  | 104 => ⟨S524288x16x1, .f32⟩
  | 105 => ⟨S524288x16x1, .f32⟩
  | 106 => ⟨S524288x16x2, .f32⟩
  | 107 => ⟨S524288x16x2, .f32⟩
  | 108 => ⟨S524288x16x2, .f32⟩
  | 109 => ⟨S524288x16x2, .f32⟩
  | 110 => ⟨S524288x16x2, .f32⟩
  | 111 => ⟨S_, .f32⟩
  | 112 => ⟨S524288x16x1, .f32⟩
  | 113 => ⟨S524288x16x1, .f32⟩
  | 114 => ⟨S524288x16x2, .f32⟩
  | 115 => ⟨S524288x16x2, .f32⟩
  | 116 => ⟨S524288x16x2, .f32⟩
  | 117 => ⟨S524288x32, .f32⟩
  | _ => ⟨S524288x3, .f32⟩

abbrev hbmTy (i : Nat) : BufTy := match i / 128 with
  | 0 => hbmTy0_0 i
  | 1 => hbmTy0_1 i
  | 2 => hbmTy0_2 i
  | _ => ⟨S524288x3, .f32⟩

abbrev bufTy : (tb : Table) → Fin (tcTables nBuf tb) → BufTy
  | .hbm, ⟨i, _⟩ => hbmTy i
  | _, _ => ⟨S524288x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_c_1 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_c_2 : Ref sig .tc := ⟨.hbm, 46, rfl⟩
abbrev main_v40 : Ref sig .tc := ⟨.hbm, 47, rfl⟩
abbrev main_v41 : Ref sig .tc := ⟨.hbm, 48, rfl⟩
abbrev main_c_3 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_c_4 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_c_5 : Ref sig .tc := ⟨.hbm, 83, rfl⟩
abbrev main_v74 : Ref sig .tc := ⟨.hbm, 84, rfl⟩
abbrev main_v75 : Ref sig .tc := ⟨.hbm, 85, rfl⟩
abbrev main_c_6 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_c_7 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_c_8 : Ref sig .tc := ⟨.hbm, 120, rfl⟩
abbrev main_v108 : Ref sig .tc := ⟨.hbm, 121, rfl⟩
abbrev main_v109 : Ref sig .tc := ⟨.hbm, 122, rfl⟩
abbrev main_c_9 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_c_10 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_c_11 : Ref sig .tc := ⟨.hbm, 157, rfl⟩
abbrev main_v142 : Ref sig .tc := ⟨.hbm, 158, rfl⟩
abbrev main_v143 : Ref sig .tc := ⟨.hbm, 159, rfl⟩
abbrev main_c_12 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_c_13 : Ref sig .tc := ⟨.hbm, 187, rfl⟩
abbrev main_v170 : Ref sig .tc := ⟨.hbm, 188, rfl⟩
abbrev main_v171 : Ref sig .tc := ⟨.hbm, 189, rfl⟩
abbrev main_v172 : Ref sig .tc := ⟨.hbm, 190, rfl⟩
abbrev main_v173 : Ref sig .tc := ⟨.hbm, 191, rfl⟩
abbrev main_v174 : Ref sig .tc := ⟨.hbm, 192, rfl⟩
abbrev main_v175 : Ref sig .tc := ⟨.hbm, 193, rfl⟩
abbrev main_c_14 : Ref sig .tc := ⟨.hbm, 194, rfl⟩
abbrev main_v176 : Ref sig .tc := ⟨.hbm, 195, rfl⟩
abbrev main_v177 : Ref sig .tc := ⟨.hbm, 196, rfl⟩
abbrev main_c_15 : Ref sig .tc := ⟨.hbm, 197, rfl⟩
abbrev main_v178 : Ref sig .tc := ⟨.hbm, 198, rfl⟩
abbrev main_v179 : Ref sig .tc := ⟨.hbm, 199, rfl⟩
abbrev main_v180 : Ref sig .tc := ⟨.hbm, 200, rfl⟩
abbrev main_v181 : Ref sig .tc := ⟨.hbm, 201, rfl⟩
abbrev main_v182 : Ref sig .tc := ⟨.hbm, 202, rfl⟩
abbrev main_v183 : Ref sig .tc := ⟨.hbm, 203, rfl⟩
abbrev main_v184 : Ref sig .tc := ⟨.hbm, 204, rfl⟩
abbrev main_v185 : Ref sig .tc := ⟨.hbm, 205, rfl⟩
abbrev main_v186 : Ref sig .tc := ⟨.hbm, 206, rfl⟩
abbrev main_v187 : Ref sig .tc := ⟨.hbm, 207, rfl⟩
abbrev main_v188 : Ref sig .tc := ⟨.hbm, 208, rfl⟩
abbrev main_v189 : Ref sig .tc := ⟨.hbm, 209, rfl⟩
abbrev main_v190 : Ref sig .tc := ⟨.hbm, 210, rfl⟩
abbrev main_v191 : Ref sig .tc := ⟨.hbm, 211, rfl⟩
abbrev main_v192 : Ref sig .tc := ⟨.hbm, 212, rfl⟩
abbrev main_v193 : Ref sig .tc := ⟨.hbm, 213, rfl⟩
abbrev main_v194 : Ref sig .tc := ⟨.hbm, 214, rfl⟩
abbrev main_v195 : Ref sig .tc := ⟨.hbm, 215, rfl⟩
abbrev main_v196 : Ref sig .tc := ⟨.hbm, 216, rfl⟩
abbrev main_v197 : Ref sig .tc := ⟨.hbm, 217, rfl⟩
abbrev main_v198 : Ref sig .tc := ⟨.hbm, 218, rfl⟩
abbrev main_v199 : Ref sig .tc := ⟨.hbm, 219, rfl⟩
abbrev main_v200 : Ref sig .tc := ⟨.hbm, 220, rfl⟩
abbrev main_v201 : Ref sig .tc := ⟨.hbm, 221, rfl⟩
abbrev main_v202 : Ref sig .tc := ⟨.hbm, 222, rfl⟩
abbrev main_v203 : Ref sig .tc := ⟨.hbm, 223, rfl⟩
abbrev main_c_16 : Ref sig .tc := ⟨.hbm, 224, rfl⟩
abbrev main_v204 : Ref sig .tc := ⟨.hbm, 225, rfl⟩
abbrev main_v205 : Ref sig .tc := ⟨.hbm, 226, rfl⟩
abbrev main_v206 : Ref sig .tc := ⟨.hbm, 227, rfl⟩
abbrev main_v207 : Ref sig .tc := ⟨.hbm, 228, rfl⟩
abbrev main_v208 : Ref sig .tc := ⟨.hbm, 229, rfl⟩
abbrev main_v209 : Ref sig .tc := ⟨.hbm, 230, rfl⟩
abbrev main_c_17 : Ref sig .tc := ⟨.hbm, 231, rfl⟩
abbrev main_v210 : Ref sig .tc := ⟨.hbm, 232, rfl⟩
abbrev main_v211 : Ref sig .tc := ⟨.hbm, 233, rfl⟩
abbrev main_c_18 : Ref sig .tc := ⟨.hbm, 234, rfl⟩
abbrev main_v212 : Ref sig .tc := ⟨.hbm, 235, rfl⟩
abbrev main_v213 : Ref sig .tc := ⟨.hbm, 236, rfl⟩
abbrev main_v214 : Ref sig .tc := ⟨.hbm, 237, rfl⟩
abbrev main_v215 : Ref sig .tc := ⟨.hbm, 238, rfl⟩
abbrev main_v216 : Ref sig .tc := ⟨.hbm, 239, rfl⟩
abbrev main_v217 : Ref sig .tc := ⟨.hbm, 240, rfl⟩
abbrev main_v218 : Ref sig .tc := ⟨.hbm, 241, rfl⟩
abbrev main_v219 : Ref sig .tc := ⟨.hbm, 242, rfl⟩
abbrev main_v220 : Ref sig .tc := ⟨.hbm, 243, rfl⟩
abbrev main_v221 : Ref sig .tc := ⟨.hbm, 244, rfl⟩
abbrev main_v222 : Ref sig .tc := ⟨.hbm, 245, rfl⟩
abbrev main_v223 : Ref sig .tc := ⟨.hbm, 246, rfl⟩
abbrev main_v224 : Ref sig .tc := ⟨.hbm, 247, rfl⟩
abbrev main_v225 : Ref sig .tc := ⟨.hbm, 248, rfl⟩
abbrev main_v226 : Ref sig .tc := ⟨.hbm, 249, rfl⟩
abbrev main_v227 : Ref sig .tc := ⟨.hbm, 250, rfl⟩
abbrev main_v228 : Ref sig .tc := ⟨.hbm, 251, rfl⟩
abbrev main_v229 : Ref sig .tc := ⟨.hbm, 252, rfl⟩
abbrev main_v230 : Ref sig .tc := ⟨.hbm, 253, rfl⟩
abbrev main_v231 : Ref sig .tc := ⟨.hbm, 254, rfl⟩
abbrev main_v232 : Ref sig .tc := ⟨.hbm, 255, rfl⟩
abbrev main_v233 : Ref sig .tc := ⟨.hbm, 256, rfl⟩
abbrev main_v234 : Ref sig .tc := ⟨.hbm, 257, rfl⟩
abbrev main_v235 : Ref sig .tc := ⟨.hbm, 258, rfl⟩
abbrev main_v236 : Ref sig .tc := ⟨.hbm, 259, rfl⟩
abbrev main_v237 : Ref sig .tc := ⟨.hbm, 260, rfl⟩
abbrev main_c_19 : Ref sig .tc := ⟨.hbm, 261, rfl⟩
abbrev main_v238 : Ref sig .tc := ⟨.hbm, 262, rfl⟩
abbrev main_v239 : Ref sig .tc := ⟨.hbm, 263, rfl⟩
abbrev main_v240 : Ref sig .tc := ⟨.hbm, 264, rfl⟩
abbrev main_v241 : Ref sig .tc := ⟨.hbm, 265, rfl⟩
abbrev main_v242 : Ref sig .tc := ⟨.hbm, 266, rfl⟩
abbrev main_v243 : Ref sig .tc := ⟨.hbm, 267, rfl⟩
abbrev main_c_20 : Ref sig .tc := ⟨.hbm, 268, rfl⟩
abbrev main_v244 : Ref sig .tc := ⟨.hbm, 269, rfl⟩
abbrev main_v245 : Ref sig .tc := ⟨.hbm, 270, rfl⟩
abbrev main_c_21 : Ref sig .tc := ⟨.hbm, 271, rfl⟩
abbrev main_v246 : Ref sig .tc := ⟨.hbm, 272, rfl⟩
abbrev main_v247 : Ref sig .tc := ⟨.hbm, 273, rfl⟩
abbrev main_v248 : Ref sig .tc := ⟨.hbm, 274, rfl⟩
abbrev main_v249 : Ref sig .tc := ⟨.hbm, 275, rfl⟩
abbrev main_v250 : Ref sig .tc := ⟨.hbm, 276, rfl⟩
abbrev main_v251 : Ref sig .tc := ⟨.hbm, 277, rfl⟩
abbrev main_v252 : Ref sig .tc := ⟨.hbm, 278, rfl⟩
abbrev main_v253 : Ref sig .tc := ⟨.hbm, 279, rfl⟩
abbrev main_v254 : Ref sig .tc := ⟨.hbm, 280, rfl⟩
abbrev main_v255 : Ref sig .tc := ⟨.hbm, 281, rfl⟩
abbrev main_v256 : Ref sig .tc := ⟨.hbm, 282, rfl⟩
abbrev main_v257 : Ref sig .tc := ⟨.hbm, 283, rfl⟩
abbrev main_v258 : Ref sig .tc := ⟨.hbm, 284, rfl⟩
abbrev main_v259 : Ref sig .tc := ⟨.hbm, 285, rfl⟩
abbrev main_v260 : Ref sig .tc := ⟨.hbm, 286, rfl⟩
abbrev main_v261 : Ref sig .tc := ⟨.hbm, 287, rfl⟩
abbrev main_v262 : Ref sig .tc := ⟨.hbm, 288, rfl⟩
abbrev main_v263 : Ref sig .tc := ⟨.hbm, 289, rfl⟩
abbrev main_v264 : Ref sig .tc := ⟨.hbm, 290, rfl⟩
abbrev main_v265 : Ref sig .tc := ⟨.hbm, 291, rfl⟩
abbrev main_v266 : Ref sig .tc := ⟨.hbm, 292, rfl⟩
abbrev main_v267 : Ref sig .tc := ⟨.hbm, 293, rfl⟩
abbrev main_v268 : Ref sig .tc := ⟨.hbm, 294, rfl⟩
abbrev main_v269 : Ref sig .tc := ⟨.hbm, 295, rfl⟩
abbrev main_v270 : Ref sig .tc := ⟨.hbm, 296, rfl⟩
abbrev main_v271 : Ref sig .tc := ⟨.hbm, 297, rfl⟩
abbrev main_c_22 : Ref sig .tc := ⟨.hbm, 298, rfl⟩
abbrev main_v272 : Ref sig .tc := ⟨.hbm, 299, rfl⟩
abbrev main_v273 : Ref sig .tc := ⟨.hbm, 300, rfl⟩
abbrev main_v274 : Ref sig .tc := ⟨.hbm, 301, rfl⟩
abbrev main_v275 : Ref sig .tc := ⟨.hbm, 302, rfl⟩
abbrev main_v276 : Ref sig .tc := ⟨.hbm, 303, rfl⟩
abbrev main_v277 : Ref sig .tc := ⟨.hbm, 304, rfl⟩
abbrev main_c_23 : Ref sig .tc := ⟨.hbm, 305, rfl⟩
abbrev main_v278 : Ref sig .tc := ⟨.hbm, 306, rfl⟩
abbrev main_v279 : Ref sig .tc := ⟨.hbm, 307, rfl⟩
abbrev main_c_24 : Ref sig .tc := ⟨.hbm, 308, rfl⟩
abbrev main_v280 : Ref sig .tc := ⟨.hbm, 309, rfl⟩
abbrev main_v281 : Ref sig .tc := ⟨.hbm, 310, rfl⟩
abbrev main_v282 : Ref sig .tc := ⟨.hbm, 311, rfl⟩
abbrev main_v283 : Ref sig .tc := ⟨.hbm, 312, rfl⟩
abbrev main_v284 : Ref sig .tc := ⟨.hbm, 313, rfl⟩
abbrev main_v285 : Ref sig .tc := ⟨.hbm, 314, rfl⟩
abbrev main_v286 : Ref sig .tc := ⟨.hbm, 315, rfl⟩
abbrev main_v287 : Ref sig .tc := ⟨.hbm, 316, rfl⟩
abbrev main_v288 : Ref sig .tc := ⟨.hbm, 317, rfl⟩
abbrev main_v289 : Ref sig .tc := ⟨.hbm, 318, rfl⟩
abbrev main_cst_25 : Ref sig .tc := ⟨.hbm, 319, rfl⟩
abbrev main_v290 : Ref sig .tc := ⟨.hbm, 320, rfl⟩
abbrev main_v291 : Ref sig .tc := ⟨.hbm, 321, rfl⟩
abbrev main_v292 : Ref sig .tc := ⟨.hbm, 322, rfl⟩
abbrev main_v293 : Ref sig .tc := ⟨.hbm, 323, rfl⟩
abbrev main_v294 : Ref sig .tc := ⟨.hbm, 324, rfl⟩
abbrev main_v295 : Ref sig .tc := ⟨.hbm, 325, rfl⟩
abbrev main_v296 : Ref sig .tc := ⟨.hbm, 326, rfl⟩
abbrev main_cst_26 : Ref sig .tc := ⟨.hbm, 327, rfl⟩
abbrev main_v297 : Ref sig .tc := ⟨.hbm, 328, rfl⟩
abbrev main_v298 : Ref sig .tc := ⟨.hbm, 329, rfl⟩
abbrev main_v299 : Ref sig .tc := ⟨.hbm, 330, rfl⟩
abbrev main_v300 : Ref sig .tc := ⟨.hbm, 331, rfl⟩
abbrev main_v301 : Ref sig .tc := ⟨.hbm, 332, rfl⟩
abbrev main_v302 : Ref sig .tc := ⟨.hbm, 333, rfl⟩
abbrev main_v303 : Ref sig .tc := ⟨.hbm, 334, rfl⟩
abbrev main_cst_27 : Ref sig .tc := ⟨.hbm, 335, rfl⟩
abbrev main_v304 : Ref sig .tc := ⟨.hbm, 336, rfl⟩
abbrev main_v305 : Ref sig .tc := ⟨.hbm, 337, rfl⟩
abbrev main_v306 : Ref sig .tc := ⟨.hbm, 338, rfl⟩
abbrev main_v307 : Ref sig .tc := ⟨.hbm, 339, rfl⟩
abbrev main_v308 : Ref sig .tc := ⟨.hbm, 340, rfl⟩
abbrev main_v309 : Ref sig .tc := ⟨.hbm, 341, rfl⟩
abbrev main_v310 : Ref sig .tc := ⟨.hbm, 342, rfl⟩
abbrev main_cst_28 : Ref sig .tc := ⟨.hbm, 343, rfl⟩
abbrev main_v311 : Ref sig .tc := ⟨.hbm, 344, rfl⟩
abbrev main_v312 : Ref sig .tc := ⟨.hbm, 345, rfl⟩
abbrev main_v313 : Ref sig .tc := ⟨.hbm, 346, rfl⟩
abbrev main_v314 : Ref sig .tc := ⟨.hbm, 347, rfl⟩
abbrev main_v315 : Ref sig .tc := ⟨.hbm, 348, rfl⟩
abbrev main_v316 : Ref sig .tc := ⟨.hbm, 349, rfl⟩
abbrev main_v317 : Ref sig .tc := ⟨.hbm, 350, rfl⟩
abbrev main_cst_29 : Ref sig .tc := ⟨.hbm, 351, rfl⟩
abbrev main_v318 : Ref sig .tc := ⟨.hbm, 352, rfl⟩
abbrev main_v319 : Ref sig .tc := ⟨.hbm, 353, rfl⟩
abbrev main_v320 : Ref sig .tc := ⟨.hbm, 354, rfl⟩
abbrev main_v321 : Ref sig .tc := ⟨.hbm, 355, rfl⟩
abbrev main_v322 : Ref sig .tc := ⟨.hbm, 356, rfl⟩
abbrev main_v323 : Ref sig .tc := ⟨.hbm, 357, rfl⟩
abbrev main_v324 : Ref sig .tc := ⟨.hbm, 358, rfl⟩
abbrev main_cst_30 : Ref sig .tc := ⟨.hbm, 359, rfl⟩
abbrev main_v325 : Ref sig .tc := ⟨.hbm, 360, rfl⟩
abbrev main_v326 : Ref sig .tc := ⟨.hbm, 361, rfl⟩
abbrev main_v327 : Ref sig .tc := ⟨.hbm, 362, rfl⟩
abbrev main_v328 : Ref sig .tc := ⟨.hbm, 363, rfl⟩
abbrev main_v329 : Ref sig .tc := ⟨.hbm, 364, rfl⟩
abbrev main_v330 : Ref sig .tc := ⟨.hbm, 365, rfl⟩
abbrev main_v331 : Ref sig .tc := ⟨.hbm, 366, rfl⟩
abbrev main_cst_31 : Ref sig .tc := ⟨.hbm, 367, rfl⟩
abbrev main_v332 : Ref sig .tc := ⟨.hbm, 368, rfl⟩
abbrev main_v333 : Ref sig .tc := ⟨.hbm, 369, rfl⟩
abbrev main_v334 : Ref sig .tc := ⟨.hbm, 370, rfl⟩
abbrev main_v335 : Ref sig .tc := ⟨.hbm, 371, rfl⟩
abbrev main_v336 : Ref sig .tc := ⟨.hbm, 372, rfl⟩
abbrev main_v337 : Ref sig .tc := ⟨.hbm, 373, rfl⟩

abbrev nD : Nat := 1
abbrev τ : Topo := Topo.v7x

variable {F : FTy → Type} [FloatOps F]

class Facts₀ : Prop where
  bcast_S524288x3_S524288x1x3_0_2 : S524288x3.BroadcastsInDim S524288x1x3 (![0, 2] : Fin 2 → Fin S524288x1x3.rank)
  bcast_S16_S1x16x1_1 : S16.BroadcastsInDim S1x16x1 (![1] : Fin 1 → Fin S1x16x1.rank)
  bcast_S524288x1x3_S524288x16x3_0_1_2 : S524288x1x3.BroadcastsInDim S524288x16x3 (![0, 1, 2] : Fin 3 → Fin S524288x16x3.rank)
  bcast_S1x16x1_S524288x16x3_0_1_2 : S1x16x1.BroadcastsInDim S524288x16x3 (![0, 1, 2] : Fin 3 → Fin S524288x16x3.rank)
  slices_S524288x16x3_S524288x16x1_0_0_0 : S524288x16x3.Slices ![0, 0, 0] S524288x16x1
  shapeCasts_S524288x16x1_S524288x16 : S524288x16x1.ShapeCasts S524288x16
  slices_S524288x16x3_S524288x16x1_0_0_1 : S524288x16x3.Slices ![0, 0, 1] S524288x16x1
  slices_S524288x16x3_S524288x16x1_0_0_2 : S524288x16x3.Slices ![0, 0, 2] S524288x16x1
  bcast_S524288x16_S524288x16x1_0_1 : S524288x16.BroadcastsInDim S524288x16x1 (![0, 1] : Fin 2 → Fin S524288x16x1.rank)
  concatenates_S524288x16x1_S524288x16x1_S524288x16x1_S524288x16x3_d2 : Shape.Concatenates [S524288x16x1, S524288x16x1, S524288x16x1] S524288x16x3 2
  bcast_S3_S1x1x3_2 : S3.BroadcastsInDim S1x1x3 (![2] : Fin 1 → Fin S1x1x3.rank)
  bcast_S1x1x3_S524288x16x3_0_1_2 : S1x1x3.BroadcastsInDim S524288x16x3 (![0, 1, 2] : Fin 3 → Fin S524288x16x3.rank)
  bcast_S_S524288x16 : S_.BroadcastsInDim S524288x16 (![] : Fin 0 → Fin S524288x16.rank)
  bcast_S16_S1x16_1 : S16.BroadcastsInDim S1x16 (![1] : Fin 1 → Fin S1x16.rank)
  bcast_S1x16_S524288x16_0_1 : S1x16.BroadcastsInDim S524288x16 (![0, 1] : Fin 2 → Fin S524288x16.rank)
  bcast_S524288x16x1_S524288x16x2_0_1_2 : S524288x16x1.BroadcastsInDim S524288x16x2 (![0, 1, 2] : Fin 3 → Fin S524288x16x2.rank)
  bcast_S_S524288x16x1 : S_.BroadcastsInDim S524288x16x1 (![] : Fin 0 → Fin S524288x16x1.rank)
  shapeCasts_S524288x16x2_S524288x32 : S524288x16x2.ShapeCasts S524288x32
  gather_S8388608x2_S524288x16x1_S524288x16x2_2_0_n_n_0_2_12_wf : GatherDims.WF S8388608x2 S524288x16x1 S524288x16x2 [2] [0] [] [0] [] 2 ![1, 2]

variable [Facts₀]

def gather_S8388608x2_S524288x16x1_S524288x16x2_2_0_n_n_0_2_12 : GatherDims S8388608x2 S524288x16x1 S524288x16x2 where
  offsetDims := [2]
  collapsedSliceDims := [0]
  operandBatchingDims := []
  startIndicesBatchingDims := []
  startIndexMap := [0]
  indexVectorDim := 2
  sliceSizes := ![1, 2]
  wf := gather_S8388608x2_S524288x16x1_S524288x16x2_2_0_n_n_0_2_12_wf

class Facts : Prop extends Facts₀ where

variable [Facts]
-- ==== Proof.Spec.lean ====
import Idealize.ShloMosaic.PureOps.Ideal
import Idealize.ShloMosaic.Lib.ValueIdx

noncomputable section

namespace HashGrid

open Idealize.ShloMosaic Idealize.ShloMosaic.ValueIdx

abbrev SX : Shape := ⟨2, ![524288, 3]⟩
abbrev ST : Shape := ⟨2, ![8388608, 2]⟩
abbrev SI : Shape := ⟨3, ![16, 8, 524288]⟩
abbrev SO : Shape := ⟨3, ![16, 3, 524288]⟩
abbrev SC : Shape := ⟨4, ![16, 8, 2, 524288]⟩
abbrev SR : Shape := ⟨2, ![524288, 32]⟩

-- The sixteen levels' resolutions 16, 23, 33, …, 4095 as single-precision words.
def scalW : Fin 16 → BitVec 32 := fun
  | 0 => 0x41800000#32 | 1 => 0x41B80000#32 | 2 => 0x42040000#32 | 3 => 0x42400000#32
  | 4 => 0x428C0000#32 | 5 => 0x42CA0000#32 | 6 => 0x43130000#32 | 7 => 0x43540000#32
  | 8 => 0x43998000#32 | 9 => 0x43DE8000#32 | 10 => 0x44214000#32 | 11 => 0x44694000#32
  | 12 => 0x44A8E000#32 | 13 => 0x44F46000#32 | 14 => 0x4530E000#32 | 15 => 0x457FF000#32
  | _ => 0#32

def scal (l : Fin 16) : EReal := FloatOps.ofBits (F := Ideal) .f32 (scalW l)

def scaled (x : EReal) (l : Fin 16) : EReal := FloatOps.mulf (F := Ideal) (φ := .f32) x (scal l)

def cw (s : EReal) : BitVec 32 := FloatOps.fptosi (F := Ideal) (φ := .f32) 32 (FloatOps.ceil (F := Ideal) (φ := .f32) s)

def fw (s : EReal) : BitVec 32 := FloatOps.fptosi (F := Ideal) (φ := .f32) 32 (FloatOps.floor (F := Ideal) (φ := .f32) s)

-- A scaled coordinate minus its floor.
def offs (s : EReal) : EReal :=
  FloatOps.subf (F := Ideal) (φ := .f32) s (FloatOps.sitofp (F := Ideal) .f32 (fw s))

def lvl (l : Fin 16) : BitVec 32 := IntOp.muli (BitVec.ofNat 32 l.val) 524288#32

-- Three words times the three primes, xor-ed, the low 19 bits kept, the level's base row `l · 2^19` added.
def hashW (l : Fin 16) (x y z : BitVec 32) : BitVec 32 :=
  IntOp.addi
    (IntOp.andi (IntOp.xori (IntOp.xori (IntOp.muli x 1#32) (IntOp.muli y 2654435761#32)) (IntOp.muli z 805459861#32))
      524287#32)
    (lvl l)

-- Which corners take the ceiling (rather than the floor) on each axis.
def selX : Fin 8 → Bool := fun
  | 0 => true | 1 => true | 2 => false | 3 => false | 4 => true | 5 => true | 6 => false | 7 => false

def selY : Fin 8 → Bool := fun
  | 0 => true | 1 => false | 2 => false | 3 => true | 4 => true | 5 => false | 6 => false | 7 => true

def selZ : Fin 8 → Bool := fun
  | 0 => true | 1 => true | 2 => true | 3 => true | 4 => false | 5 => false | 6 => false | 7 => false

def pick (c : Bool) (s : EReal) : BitVec 32 := if c then cw s else fw s

def cornerIdx (k : Fin 8) (l : Fin 16) (sx sy sz : EReal) : BitVec 32 :=
  hashW l (pick (selX k) sx) (pick (selY k) sy) (pick (selZ k) sz)

-- A negative row index is wrapped by the table's length.
def normIdx (h : BitVec 32) : BitVec 32 :=
  Scalar.select (IntOp.cmpi .slt h 0#32) (IntOp.addi h 8388608#32) h

-- A row index read signed and clamped into the table.
def rowOf (h : BitVec 32) : Fin 8388608 := ⟨min h.toInt.toNat (8388608 - 1), by omega⟩

def look (T : ST.Idx → EReal) (h : BitVec 32) (f : Fin 2) : EReal := T (ix2 (rowOf (normIdx h)) f)

def one : EReal := FloatOps.ofBits (F := Ideal) .f32 0x3F800000#32

-- `a · o + b · (1 − o)`.
def lerp (a b o : EReal) : EReal :=
  FloatOps.addf (F := Ideal) (φ := .f32) (FloatOps.mulf (F := Ideal) (φ := .f32) a o)
    (FloatOps.mulf (F := Ideal) (φ := .f32) b (FloatOps.subf (F := Ideal) (φ := .f32) one o))

-- Trilinear: along x within the corner pairs (0,3), (1,2), (4,7), (5,6), then along y, then along z.
def blend (f0 f1 f2 f3 f4 f5 f6 f7 ox oy oz : EReal) : EReal :=
  lerp (lerp (lerp f0 f3 ox) (lerp f1 f2 ox) oy) (lerp (lerp f4 f7 ox) (lerp f5 f6 ox) oy) oz

def ScX (X : SX.Idx → EReal) : Fin 16 → Fin 3 → Fin 524288 → EReal := fun l d b => scaled (X (ix2 b d)) l

def IDX (Sc : Fin 16 → Fin 3 → Fin 524288 → EReal) : SI.Idx → BitVec 32 := fun j =>
  cornerIdx ⟨(j 1).val, (j 1).isLt⟩ ⟨(j 0).val, (j 0).isLt⟩
    (Sc ⟨(j 0).val, (j 0).isLt⟩ 0 ⟨(j 2).val, (j 2).isLt⟩)
    (Sc ⟨(j 0).val, (j 0).isLt⟩ 1 ⟨(j 2).val, (j 2).isLt⟩)
    (Sc ⟨(j 0).val, (j 0).isLt⟩ 2 ⟨(j 2).val, (j 2).isLt⟩)

def OFF (Sc : Fin 16 → Fin 3 → Fin 524288 → EReal) : SO.Idx → EReal := fun j =>
  offs (Sc ⟨(j 0).val, (j 0).isLt⟩ ⟨(j 1).val, (j 1).isLt⟩ ⟨(j 2).val, (j 2).isLt⟩)

def CORN (T : ST.Idx → EReal) (I : SI.Idx → BitVec 32) : SC.Idx → EReal := fun j =>
  look T (I (ix3 ⟨(j 0).val, (j 0).isLt⟩ ⟨(j 1).val, (j 1).isLt⟩ ⟨(j 3).val, (j 3).isLt⟩)) ⟨(j 2).val, (j 2).isLt⟩

def BL (C : SC.Idx → EReal) (O : SO.Idx → EReal) : SR.Idx → EReal := fun j =>
  let b : Fin 524288 := ⟨(j 0).val, (j 0).isLt⟩
  let l : Fin 16 := ⟨(j 1).val / 2, by have h32 : (j 1).val < 32 := (j 1).isLt; omega⟩
  let f : Fin 2 := ⟨(j 1).val % 2, by omega⟩
  blend (C (ix4 l 0 f b)) (C (ix4 l 1 f b)) (C (ix4 l 2 f b)) (C (ix4 l 3 f b))
    (C (ix4 l 4 f b)) (C (ix4 l 5 f b)) (C (ix4 l 6 f b)) (C (ix4 l 7 f b))
    (O (ix3 l 0 b)) (O (ix3 l 1 b)) (O (ix3 l 2 b))

-- Entry `(b, 2 l + f)`: the blend, by point `b`'s offsets at level `l`, of feature `f` of the eight corners' table rows.
def OUT (X : SX.Idx → EReal) (T : ST.Idx → EReal) : SR.Idx → EReal :=
  BL (CORN T (IDX (ScX X))) (OFF (ScX X))

abbrev SK0 : Shape := ⟨2, ![3, 524288]⟩
abbrev SK1 : Shape := ⟨2, ![16, 128]⟩
abbrev SRW : Shape := ⟨3, ![524288, 16, 3]⟩
abbrev SRC : Shape := ⟨3, ![524288, 16, 2]⟩

-- The scaled coordinates from the points laid out `[3, B]` and the resolutions repeated along 128 columns.
def ScK (A0 : SK0.Idx → EReal) (A1 : SK1.Idx → EReal) : Fin 16 → Fin 3 → Fin 524288 → EReal := fun l d b =>
  FloatOps.mulf (F := Ideal) (φ := .f32) (A0 (ix2 d b)) (A1 (ix2 l (0 : Fin 128)))

-- The same quantities laid out per point, level and axis (or feature).
def RCU (X : SX.Idx → EReal) : SRW.Idx → BitVec 32 := fun j =>
  cw (ScX X ⟨(j 1).val, (j 1).isLt⟩ ⟨(j 2).val, (j 2).isLt⟩ ⟨(j 0).val, (j 0).isLt⟩)

def RFU (X : SX.Idx → EReal) : SRW.Idx → BitVec 32 := fun j =>
  fw (ScX X ⟨(j 1).val, (j 1).isLt⟩ ⟨(j 2).val, (j 2).isLt⟩ ⟨(j 0).val, (j 0).isLt⟩)

def ROF (X : SX.Idx → EReal) : SRW.Idx → EReal := fun j =>
  offs (ScX X ⟨(j 1).val, (j 1).isLt⟩ ⟨(j 2).val, (j 2).isLt⟩ ⟨(j 0).val, (j 0).isLt⟩)

def RCV (k : Fin 8) (T : ST.Idx → EReal) (X : SX.Idx → EReal) : SRC.Idx → EReal := fun j =>
  look T (cornerIdx k ⟨(j 1).val, (j 1).isLt⟩
      (ScX X ⟨(j 1).val, (j 1).isLt⟩ 0 ⟨(j 0).val, (j 0).isLt⟩)
      (ScX X ⟨(j 1).val, (j 1).isLt⟩ 1 ⟨(j 0).val, (j 0).isLt⟩)
      (ScX X ⟨(j 1).val, (j 1).isLt⟩ 2 ⟨(j 0).val, (j 0).isLt⟩))
    ⟨(j 2).val, (j 2).isLt⟩

def RBL (F0 F1 F2 F3 F4 F5 F6 F7 : SRC.Idx → EReal) (O : SRW.Idx → EReal) : SR.Idx → EReal := fun j =>
  let b : Fin 524288 := ⟨(j 0).val, (j 0).isLt⟩
  let l : Fin 16 := ⟨(j 1).val / 2, by have h32 : (j 1).val < 32 := (j 1).isLt; omega⟩
  let f : Fin 2 := ⟨(j 1).val % 2, by omega⟩
  blend (F0 (ix3 b l f)) (F1 (ix3 b l f)) (F2 (ix3 b l f)) (F3 (ix3 b l f))
    (F4 (ix3 b l f)) (F5 (ix3 b l f)) (F6 (ix3 b l f)) (F7 (ix3 b l f))
    (O (ix3 b l 0)) (O (ix3 b l 1)) (O (ix3 b l 2))

theorem RBL_eq_OUT (X : SX.Idx → EReal) (T : ST.Idx → EReal) :
    RBL (RCV 0 T X) (RCV 1 T X) (RCV 2 T X) (RCV 3 T X) (RCV 4 T X) (RCV 5 T X) (RCV 6 T X) (RCV 7 T X) (ROF X)
      = OUT X T := by
  funext j
  rfl

end HashGrid

end
-- ==== Proof.LibGather.lean ====
import Idealize.ShloMosaic.PureOps.Ideal
import Idealize.ShloMosaic.Lib.ValueIdx

noncomputable section

namespace GatherRead

open Idealize.ShloMosaic Idealize.ShloMosaic.ValueIdx

abbrev flatDims (N A B C : Nat)
    (wf : GatherDims.WF ⟨1, ![N]⟩ ⟨4, ![A, B, C, 1]⟩ ⟨3, ![A, B, C]⟩ [] [0] [] [0] [] 3 ![1]) :
    GatherDims ⟨1, ![N]⟩ ⟨4, ![A, B, C, 1]⟩ ⟨3, ![A, B, C]⟩ where
  offsetDims := []
  collapsedSliceDims := [0]
  operandBatchingDims := []
  startIndicesBatchingDims := []
  startIndexMap := [0]
  indexVectorDim := 3
  sliceSizes := ![1]
  wf := wf

-- The table's only axis is collapsed, so an entry of the result is the table at the clamped start word.
theorem gather_flat_apply {α : Type} {N A B C w : Nat} (hN : 0 < N)
    (wf : GatherDims.WF ⟨1, ![N]⟩ ⟨4, ![A, B, C, 1]⟩ ⟨3, ![A, B, C]⟩ [] [0] [] [0] [] 3 ![1])
    (x : (⟨1, ![N]⟩ : Shape).Idx → α) (idx : IVec ⟨4, ![A, B, C, 1]⟩ w) (a : Fin A) (b : Fin B) (c : Fin C) :
    Host.gather (flatDims N A B C wf) x idx (ix3 a b c)
      = x (ix1 ⟨min (idx (ix4 a b c (0 : Fin 1))).toInt.toNat (N - 1), by omega⟩) := by
  unfold Host.gather
  congr 1
  funext e

  obtain rfl : e = 0 := Subsingleton.elim _ _
  refine Fin.ext ?_
  show (flatDims N A B C wf).start (ix3 a b c) idx 0 + (flatDims N A B C wf).batchCoord (ix3 a b c) 0
      + (flatDims N A B C wf).offCoord (ix3 a b c) 0 = _

  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N A B C wf).startIndexMap from List.mem_singleton.mpr rfl)]

  have hsi : (flatDims N A B C wf).siIdx (ix3 a b c) ⟨List.idxOf (0 : Fin 1) (flatDims N A B C wf).startIndexMap,
      List.idxOf_lt_length_iff.2 (List.mem_singleton.mpr rfl)⟩ = ix4 a b c (0 : Fin 1) := by
    funext p; refine Fin.ext ?_
    match p with
    | ⟨0, _⟩ => rfl
    | ⟨1, _⟩ => rfl
    | ⟨2, _⟩ => rfl
    | ⟨3, _⟩ => rfl
  rw [hsi]
  rfl

abbrev rowDims (N A B K : Nat)
    (wf : GatherDims.WF ⟨2, ![N, K]⟩ ⟨3, ![A, B, 1]⟩ ⟨3, ![A, B, K]⟩ [2] [0] [] [0] [] 2 ![1, K]) :
    GatherDims ⟨2, ![N, K]⟩ ⟨3, ![A, B, 1]⟩ ⟨3, ![A, B, K]⟩ where
  offsetDims := [2]
  collapsedSliceDims := [0]
  operandBatchingDims := []
  startIndicesBatchingDims := []
  startIndexMap := [0]
  indexVectorDim := 2
  sliceSizes := ![1, K]
  wf := wf

-- Axis 0 is collapsed onto the clamped start word and axis 1 is kept, so an entry of the result is one column of the selected row.
theorem gather_rows_apply {α : Type} {N A B K w : Nat} (hN : 0 < N)
    (wf : GatherDims.WF ⟨2, ![N, K]⟩ ⟨3, ![A, B, 1]⟩ ⟨3, ![A, B, K]⟩ [2] [0] [] [0] [] 2 ![1, K])
    (x : (⟨2, ![N, K]⟩ : Shape).Idx → α) (idx : IVec ⟨3, ![A, B, 1]⟩ w) (a : Fin A) (b : Fin B) (k : Fin K) :
    Host.gather (rowDims N A B K wf) x idx (ix3 a b k)
      = x (ix2 ⟨min (idx (ix3 a b (0 : Fin 1))).toInt.toNat (N - 1), by omega⟩ k) := by
  unfold Host.gather
  congr 1
  funext e
  refine Fin.ext ?_
  match e with
  | ⟨0, _⟩ =>

    show (rowDims N A B K wf).start (ix3 a b k) idx 0 + (rowDims N A B K wf).batchCoord (ix3 a b k) 0
        + (rowDims N A B K wf).offCoord (ix3 a b k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N A B K wf).startIndexMap from List.mem_singleton.mpr rfl)]

    have hsi : (rowDims N A B K wf).siIdx (ix3 a b k) ⟨List.idxOf (0 : Fin 2) (rowDims N A B K wf).startIndexMap,
        List.idxOf_lt_length_iff.2 (List.mem_singleton.mpr rfl)⟩ = ix3 a b (0 : Fin 1) := by
      funext p; refine Fin.ext ?_
      match p with
      | ⟨0, _⟩ => rfl
      | ⟨1, _⟩ => rfl
      | ⟨2, _⟩ => rfl
    rw [hsi]
    rfl
  | ⟨1, _⟩ =>

    show (rowDims N A B K wf).start (ix3 a b k) idx 1 + (rowDims N A B K wf).batchCoord (ix3 a b k) 1
        + (rowDims N A B K wf).offCoord (ix3 a b k) 1 = _
    have h1 : (1 : Fin 2) ∉ (rowDims N A B K wf).startIndexMap := by
      show (1 : Fin 2) ∉ [(0 : Fin 2)]
      decide
    have hk : (1 : Fin 2) ∈ (rowDims N A B K wf).sKept :=
      (GatherDims.mem_sKept _ _).mpr ⟨h1, List.not_mem_nil⟩
    rw [GatherDims.batchCoord_eq_zero _ _ _ List.not_mem_nil]
    unfold GatherDims.start
    rw [dif_neg h1]
    unfold GatherDims.offCoord
    rw [dif_pos hk]
    simp only [Nat.add_zero, Nat.zero_add]
    rfl

end GatherRead

end
-- ==== Proof.KHost.lean ====
import proofs.«423078_j35673998360637_4_alg».proof.Proof.Gen.KernelIdeal.Launch
import proofs.«423078_j35673998360637_4_alg».proof.Proof.Spec
import proofs.«423078_j35673998360637_4_alg».proof.Proof.LibGather
import Idealize.ShloMosaic.Lib.StableHlo.Run
import Idealize.ShloMosaic.Lib.Pipeline.Value
import Idealize.ShloMosaic.Lib.ValueLayout

set_option maxRecDepth 16384

noncomputable section

namespace Cert.KernelIdeal.Val

open Cert.KernelIdeal Cert.KernelIdeal.Gen Idealize.ShloMosaic Idealize.ShloMosaic.TcCoe
open Idealize.SL.Sem Idealize.ShloMosaic.StableHlo Idealize.ShloMosaic.ValueIdx
open Idealize.ShloMosaic.Pipeline (Dat Cfg Window)

variable (W : Valuation τ sig (Elt Ideal))

private theorem lit0_eq : ∀ k : Fin 16, lit0 k = HashGrid.scalW k := by decide

theorem host0_scaled :
    HashGrid.ScK (after (hostOps0 (F := Ideal)) W (Proc.devRef .tc main_v0)) (after (hostOps0 (F := Ideal)) W (Proc.devRef .tc main_v2))
      = HashGrid.ScX (W (Proc.devRef .tc main_arg0)) := by
  funext l d b
  unfold HashGrid.ScK HashGrid.ScX HashGrid.scaled HashGrid.scal
  after_results
  rw [transpose_ix2_apply,
    broadcastInDim_apply _ _ _ (ix2 l (0 : Fin 128)) (ix2 l (0 : Fin 1)) (fun a => match a with | ⟨0, _⟩ => rfl | ⟨1, _⟩ => rfl),
    broadcastInDim_apply _ _ _ (ix2 l (0 : Fin 1)) (ix1 l) (fun a => match a with | ⟨0, _⟩ => rfl)]
  show FloatOps.mulf _ (FloatOps.ofBits (F := Ideal) .f32 (lit0 (S16.rowMajor (ix1 l)))) = _
  rw [show S16.rowMajor (ix1 l) = l from Fin.ext (Shape.rowMajor_val_one (ix1 l)), lit0_eq]

theorem host0_arg1 : after (hostOps0 (F := Ideal)) W (Proc.devRef .tc main_arg1) = W (Proc.devRef .tc main_arg1) := by
  after_results

private theorem wrap_apply (I : S16x8x524288.Idx → BitVec 32) (l : Fin 16) (k : Fin 8) (b : Fin 524288) :
    broadcastInDim S16x8x524288x1 ![0, 1, 2] bcast_S16x8x524288_S16x8x524288x1_0_1_2
        (select (cmpi .slt I (broadcastInDim S16x8x524288 ![] bcast_S_S16x8x524288 (constantI S_ 32 0#32)))
          (addi I (broadcastInDim S16x8x524288 ![] bcast_S_S16x8x524288 (constantI S_ 32 8388608#32))) I)
        (ix4 l k b (0 : Fin 1))
      = HashGrid.normIdx (I (ix3 l k b)) := by
  rw [broadcastInDim_apply _ _ _ (ix4 l k b (0 : Fin 1)) (ix3 l k b)
    (fun a => match a with | ⟨0, _⟩ => rfl | ⟨1, _⟩ => rfl | ⟨2, _⟩ => rfl)]
  rfl

private theorem col_apply (T : S8388608x2.Idx → EReal) (off : Fin 2 → Nat) (h : S8388608x2.Slices off S8388608x1) (f : Fin 2)
    (h0 : off 0 = 0) (h1 : off 1 = f.val) (r : Fin 8388608) :
    shapeCast S8388608 (extractStridedSlice S8388608x1 off T h) shapeCasts_S8388608x1_S8388608 (ix1 r) = T (ix2 r f) := by
  rw [shapeCast_apply _ _ (ix1 r) (ix2 r (0 : Fin 1)) (by
    rw [Shape.rowMajor_val_two, Shape.rowMajor_val_one]
    show r.val * 1 + 0 = r.val
    omega)]
  exact extractStridedSlice_apply off T h (ix2 r (0 : Fin 1)) (ix2 r f) (fun a => match a with
    | ⟨0, _⟩ => by show r.val = off 0 + r.val; omega
    | ⟨1, _⟩ => by show f.val = off 1 + 0; omega)

-- A gather from a flattened column at clamped rows, then a unit feature axis: entry (l, k, 0, b) looks the table up at the word (l, k, b).
private theorem piece_apply (T : S8388608x2.Idx → EReal) (I : S16x8x524288.Idx → BitVec 32) (off : Fin 2 → Nat)
    (h : S8388608x2.Slices off S8388608x1) (f : Fin 2) (h0 : off 0 = 0) (h1 : off 1 = f.val)
    (l : Fin 16) (k : Fin 8) (b : Fin 524288) :
    broadcastInDim S16x8x1x524288 ![0, 1, 3] bcast_S16x8x524288_S16x8x1x524288_0_1_3
        (Host.gather gather_S8388608_S16x8x524288x1_S16x8x524288_n_0_n_n_0_3_1
          (shapeCast S8388608 (extractStridedSlice S8388608x1 off T h) shapeCasts_S8388608x1_S8388608)
          (broadcastInDim S16x8x524288x1 ![0, 1, 2] bcast_S16x8x524288_S16x8x524288x1_0_1_2
            (select (cmpi .slt I (broadcastInDim S16x8x524288 ![] bcast_S_S16x8x524288 (constantI S_ 32 0#32)))
              (addi I (broadcastInDim S16x8x524288 ![] bcast_S_S16x8x524288 (constantI S_ 32 8388608#32))) I)))
        (ix4 l k (0 : Fin 1) b)
      = HashGrid.look T (I (ix3 l k b)) f := by
  rw [broadcastInDim_apply _ _ _ (ix4 l k (0 : Fin 1) b) (ix3 l k b)
    (fun a => match a with | ⟨0, _⟩ => rfl | ⟨1, _⟩ => rfl | ⟨2, _⟩ => rfl)]
  show Host.gather (GatherRead.flatDims 8388608 16 8 524288 gather_S8388608_S16x8x524288x1_S16x8x524288_n_0_n_n_0_3_1_wf)
    _ _ (ix3 l k b) = _
  rw [GatherRead.gather_flat_apply (by decide), col_apply T off h f h0 h1]
  refine congrArg (fun r : Fin 8388608 => T (ix2 r f)) (Fin.ext ?_)
  show min (BitVec.toInt _).toNat (8388608 - 1) = min (HashGrid.normIdx (I (ix3 l k b))).toInt.toNat (8388608 - 1)
  rw [wrap_apply]

-- The two gathered columns sit side by side on the feature axis, so feature f reads piece f at its only feature coordinate.
theorem host1_corners :
    after (hostOps1 (F := Ideal)) W (Proc.devRef .tc main_v24)
      = HashGrid.CORN (W (Proc.devRef .tc main_arg1)) (W (Proc.devRef .tc main_v3_0)) := by
  funext j
  obtain ⟨l, k, f, b, rfl⟩ : ∃ (l : Fin 16) (k : Fin 8) (f : Fin 2) (b : Fin 524288), j = ix4 l k f b :=
    ⟨j 0, j 1, j 2, j 3, eq_ix4 j⟩
  simp only [after_cons, after_nil]
  rw [binary_result]
  match f with
  | ⟨0, _⟩ =>
    rw [concatenate_pair_apply_left (s₁ := S16x8x1x524288) (s₂ := S16x8x1x524288) (2 : Fin 4) _ _ _
      (ix4 l k (⟨0, by omega⟩ : Fin 2) b) rfl (ix4 l k (0 : Fin 1) b)
      (fun a => match a with | ⟨0, _⟩ => rfl | ⟨1, _⟩ => rfl | ⟨2, _⟩ => rfl | ⟨3, _⟩ => rfl)]
    after_results_simp
    exact piece_apply (W (Proc.devRef .tc main_arg1)) (W (Proc.devRef .tc main_v3_0)) ![0, 0]
      slices_S8388608x2_S8388608x1_0_0 ⟨0, by omega⟩ rfl rfl l k b
  | ⟨1, _⟩ =>
    rw [concatenate_pair_apply_right (s₁ := S16x8x1x524288) (s₂ := S16x8x1x524288) (2 : Fin 4) _ _ _
      (ix4 l k (⟨1, by omega⟩ : Fin 2) b) rfl rfl (ix4 l k (0 : Fin 1) b)
      (fun a => match a with
        | ⟨0, _⟩ => fun _ => rfl
        | ⟨1, _⟩ => fun _ => rfl
        | ⟨2, _⟩ => fun hne => absurd rfl hne
        | ⟨3, _⟩ => fun _ => rfl)
      rfl]
    after_results_simp
    exact piece_apply (W (Proc.devRef .tc main_arg1)) (W (Proc.devRef .tc main_v3_0)) ![0, 1]
      slices_S8388608x2_S8388608x1_0_1 ⟨1, by omega⟩ rfl rfl l k b

theorem host1_off : after (hostOps1 (F := Ideal)) W (Proc.devRef .tc main_v3_1) = W (Proc.devRef .tc main_v3_1) := by
  after_results

end Cert.KernelIdeal.Val

end
-- ==== Proof.KReg0.lean ====
import proofs.«423078_j35673998360637_4_alg».proof.Proof.Gen.KernelIdeal.Frame
import proofs.«423078_j35673998360637_4_alg».proof.Proof.Spec
import Idealize.ShloMosaic.Lib.Pipeline.Value
import Idealize.ShloMosaic.Lib.ValueLayout

set_option maxRecDepth 16384

noncomputable section

namespace Cert.KernelIdeal.Val

open Cert.KernelIdeal Cert.KernelIdeal.Gen Idealize.ShloMosaic Idealize.ShloMosaic.TcCoe
open Idealize.SL.Sem Idealize.ShloMosaic.StableHlo Idealize.ShloMosaic.ValueIdx
open Idealize.ShloMosaic.Pipeline (Dat Cfg Window)

variable (V : (c : Dev nD) → (b : Ref sig .tc) → Buf (Elt Ideal) ((c : Thread nD τ).loc b))

namespace Reg0
section Layout
variable {α : Type}

theorem bcast_points (w : S1x3x8192.Idx → α) (h : S1x3x8192.Broadcasts S16x3x8192) (l : Fin 16) (d : Fin 3) (p : Fin 8192) :
    broadcastTo S16x3x8192 w h (ix3 l d p) = w (ix3 (0 : Fin 1) d p) :=
  broadcastTo_apply w h (ix3 l d p) (ix3 (0 : Fin 1) d p) fun ax =>
    match ax with | ⟨0, _⟩ => rfl | ⟨1, _⟩ => rfl | ⟨2, _⟩ => rfl

theorem bcast_levels (w : S16x1x1.Idx → α) (h : S16x1x1.Broadcasts S16x3x8192) (l : Fin 16) (d : Fin 3) (p : Fin 8192) :
    broadcastTo S16x3x8192 w h (ix3 l d p) = w (ix3 l (0 : Fin 1) (0 : Fin 1)) :=
  broadcastTo_apply w h (ix3 l d p) (ix3 l (0 : Fin 1) (0 : Fin 1)) fun ax =>
    match ax with | ⟨0, _⟩ => rfl | ⟨1, _⟩ => rfl | ⟨2, _⟩ => rfl

theorem bcast_column (w : S16x1.Idx → α) (h : S16x1.Broadcasts S16x8192) (l : Fin 16) (p : Fin 8192) :
    broadcastTo S16x8192 w h (ix2 l p) = w (ix2 l (0 : Fin 1)) :=
  broadcastTo_apply w h (ix2 l p) (ix2 l (0 : Fin 1)) fun ax => match ax with | ⟨0, _⟩ => rfl | ⟨1, _⟩ => rfl

-- The three casts below move or drop a unit axis, which leaves the row-major position unchanged.
theorem cast_column (w : S16x1.Idx → α) (h : S16x1.ShapeCasts S16x1x1) (l : Fin 16) :
    shapeCast S16x1x1 w h (ix3 l (0 : Fin 1) (0 : Fin 1)) = w (ix2 l (0 : Fin 1)) :=
  shapeCast_apply w h _ _ (by
    rw [Shape.rowMajor_val_three, Shape.rowMajor_val_two]
    show l.val * 1 + 0 = (l.val * 1 + 0) * 1 + 0
    omega)

theorem cast_drop_mid (w : S16x1x8192.Idx → α) (h : S16x1x8192.ShapeCasts S16x8192) (l : Fin 16) (p : Fin 8192) :
    shapeCast S16x8192 w h (ix2 l p) = w (ix3 l (0 : Fin 1) p) :=
  shapeCast_apply w h _ _ (by
    rw [Shape.rowMajor_val_three, Shape.rowMajor_val_two]
    show (l.val * 1 + 0) * 8192 + p.val = l.val * 8192 + p.val
    omega)

theorem cast_add_mid (w : S16x8192.Idx → α) (h : S16x8192.ShapeCasts S16x1x8192) (l : Fin 16) (u : Fin 1) (p : Fin 8192) :
    shapeCast S16x1x8192 w h (ix3 l u p) = w (ix2 l p) :=
  shapeCast_apply w h _ _ (by
    have hu : u.val = 0 := by omega
    rw [Shape.rowMajor_val_three, Shape.rowMajor_val_two]
    show l.val * 8192 + p.val = (l.val * 1 + u.val) * 8192 + p.val
    omega)

theorem axis_at (o : Nat) (X : S16x3x8192.Idx → α) (hs : S16x3x8192.Slices ![0, o, 0] S16x1x8192)
    (hc : S16x1x8192.ShapeCasts S16x8192) (l : Fin 16) (p : Fin 8192) (d : Fin 3) (hd : d.val = o) :
    shapeCast S16x8192 (extractStridedSlice S16x1x8192 ![0, o, 0] X hs) hc (ix2 l p) = X (ix3 l d p) :=
  (cast_drop_mid _ hc l p).trans (slice3_axis1_apply o X hs l (0 : Fin 1) p d (by rw [hd]; rfl))

end Layout

theorem zeros2 : (![0, 0] : Fin 2 → Nat) = fun _ => 0 := funext fun a => by fin_cases a <;> rfl
theorem zeros3 : (![0, 0, 0] : Fin 3 → Nat) = fun _ => 0 := funext fun a => by fin_cases a <;> rfl

theorem ld_column {Val : EltTy → Type} {e : EltTy} (x1 : S16x128.Idx → Val e) (l : Fin 16) :
    View.ld x1 r0_1 (ix2 l (0 : Fin 1)) = x1 (ix2 l (0 : Fin 128)) :=
  congrArg x1 (funext fun a => Fin.ext (by
    match a with
    | ⟨0, _⟩ => show 0 + 1 * l.val = l.val; omega
    | ⟨1, _⟩ => rfl))

def blockSc (x0 : Vec Ideal S3x8192 .f32) (x1 : Vec Ideal S16x128 .f32) : Fin 16 → Fin 3 → Fin 8192 → EReal := fun l d p =>
  FloatOps.mulf (F := Ideal) (φ := .f32) (x0 (ix2 d p)) (x1 (ix2 l (0 : Fin 128)))

-- Both factors are repeated along the axes they lack, so entry (l, d, p) multiplies coordinate d of point p by level l's resolution.
theorem sc_at (x0 : Vec Ideal S3x8192 .f32) (x1 : Vec Ideal S16x128 .f32) (l : Fin 16) (d : Fin 3) (p : Fin 8192) :
    k0_pay3 (View.ld x0 r0_0) (View.ld x1 r0_1) (ix3 l d p) = blockSc x0 x1 l d p := by
  unfold k0_pay3
  simp only [shapeCast_self]
  show FloatOps.mulf _ _ = _
  rw [bcast_points, bcast_levels, cast_column, shapeCast_ab_1ab_apply, View.ld_unit_zero (S := S3x8192) zeros2, ld_column]
  rfl

theorem out_offsets (x0 : Vec Ideal S3x8192 .f32) (x1 : Vec Ideal S16x128 .f32) (l : Fin 16) (d : Fin 3) (p : Fin 8192) :
    out0_3 x0 x1 (ix3 l d p) = HashGrid.offs (blockSc x0 x1 l d p) := by
  unfold out0_3
  rw [View.canon_unit_zero zeros3]
  exact congrArg HashGrid.offs (sc_at x0 x1 l d p)

section Words
variable (v0 : Vec Ideal S3x8192 .f32) (v2 : Vec Ideal S16x1 .f32) (l : Fin 16) (p : Fin 8192)

theorem ceil_x : k0_pay7 v0 v2 (ix2 l p) = HashGrid.cw (k0_pay3 v0 v2 (ix3 l 0 p)) := axis_at 0 (k0_pay4 v0 v2) _ _ l p 0 rfl
theorem ceil_y : k0_pay8 v0 v2 (ix2 l p) = HashGrid.cw (k0_pay3 v0 v2 (ix3 l 1 p)) := axis_at 1 (k0_pay4 v0 v2) _ _ l p 1 rfl
theorem ceil_z : k0_pay9 v0 v2 (ix2 l p) = HashGrid.cw (k0_pay3 v0 v2 (ix3 l 2 p)) := axis_at 2 (k0_pay4 v0 v2) _ _ l p 2 rfl
theorem floor_x : k0_pay10 v0 v2 (ix2 l p) = HashGrid.fw (k0_pay3 v0 v2 (ix3 l 0 p)) := axis_at 0 (k0_pay5 v0 v2) _ _ l p 0 rfl
theorem floor_y : k0_pay11 v0 v2 (ix2 l p) = HashGrid.fw (k0_pay3 v0 v2 (ix3 l 1 p)) := axis_at 1 (k0_pay5 v0 v2) _ _ l p 1 rfl
theorem floor_z : k0_pay12 v0 v2 (ix2 l p) = HashGrid.fw (k0_pay3 v0 v2 (ix3 l 2 p)) := axis_at 2 (k0_pay5 v0 v2) _ _ l p 2 rfl

end Words

theorem base_at (l : Fin 16) : k0_pay13 (ix2 l (0 : Fin 1)) = HashGrid.lvl l := by
  unfold k0_pay13
  show IntOp.muli (iota .tc S16x1 32 [0] iota_S16x1_d0_w32 (ix2 l (0 : Fin 1))) 524288#32 = _
  rw [iota_single_apply]
  rfl

-- One store's words are the hash of three word arrays entry by entry; the other seven stores are the same function at other arguments.
theorem hash_at (A B C : IVec S16x8192 32) (l : Fin 16) (u : Fin 1) (p : Fin 8192) :
    k0_pay16 A B C k0_pay13 (ix3 l u p) = HashGrid.hashW l (A (ix2 l p)) (C (ix2 l p)) (B (ix2 l p)) := by
  unfold k0_pay16
  refine (cast_add_mid _ _ l u p).trans ?_
  show IntOp.addi _ (broadcastTo S16x8192 k0_pay13 _ (ix2 l p)) = _
  rw [bcast_column, base_at]
  rfl

def blockIdx (x0 : Vec Ideal S3x8192 .f32) (x1 : Vec Ideal S16x128 .f32) : S16x8x8192.Idx → BitVec 32 := fun y =>
  HashGrid.cornerIdx ⟨(y 1).val, (y 1).isLt⟩ ⟨(y 0).val, (y 0).isLt⟩
    (blockSc x0 x1 ⟨(y 0).val, (y 0).isLt⟩ 0 ⟨(y 2).val, (y 2).isLt⟩)
    (blockSc x0 x1 ⟨(y 0).val, (y 0).isLt⟩ 1 ⟨(y 2).val, (y 2).isLt⟩)
    (blockSc x0 x1 ⟨(y 0).val, (y 0).isLt⟩ 2 ⟨(y 2).val, (y 2).isLt⟩)

theorem emb_row (k : Nat) (inb : ∀ a, (![0, k, 0] : Fin 3 → Nat) a + S16x1x8192.size a ≤ S16x8x8192.size a)
    (l : Fin 16) (u : Fin 1) (p : Fin 8192) :
    (Rect.unit (s := S16x8x8192) ![0, k, 0] S16x1x8192.size inb).emb (ix3 l u p)
      = ix3 l (⟨k, by have h : k + 1 ≤ 8 := inb 1; omega⟩ : Fin 8) p :=
  funext fun a => Fin.ext (by
    have hu : u.val = 0 := by omega
    match a with
    | ⟨0, _⟩ => show 0 + 1 * l.val = l.val; omega
    | ⟨1, _⟩ => show k + 1 * u.val = k; omega
    | ⟨2, _⟩ => show 0 + 1 * p.val = p.val; omega)

-- The eight stores tile the block by rows, and store k holds corner k's row indices.
theorem out_indices (x0 : Vec Ideal S3x8192 .f32) (x1 : Vec Ideal S16x128 .f32) (y : S16x8x8192.Idx) :
    out0_2 x0 x1 y = blockIdx x0 x1 y := by
  unfold out0_2
  refine View.canon_apply_of_pieces (blockIdx x0 x1) _ ?_ y (cover0_2 (F := Ideal) _ _ _ _ _ _ _ _ y)
  intro pc hpc x
  simp only [List.mem_cons, List.not_mem_nil, or_false] at hpc
  rcases hpc with rfl | rfl | rfl | rfl | rfl | rfl | rfl | rfl <;>
  · obtain ⟨l, u, p, rfl⟩ : ∃ (l : Fin 16) (u : Fin 1) (p : Fin 8192), x = ix3 l u p := ⟨x 0, x 1, x 2, eq_ix3 x⟩
    refine (hash_at _ _ _ l u p).trans ?_
    rw [emb_row]
    simp only [ceil_x, ceil_y, ceil_z, floor_x, floor_y, floor_z, sc_at]
    rfl

theorem block_indices : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = t.val
    ∧ win0_3.index t (0 : Fin 3) = 0 ∧ win0_3.index t (1 : Fin 3) = 0 ∧ win0_3.index t (2 : Fin 3) = t.val :=
  (by decide +kernel : ∀ t : Fin grid0.N, _)

theorem points_block (c : Dev nD) (t : Fin cfg0.N) (d : Fin 3) (p : Fin 8192) (b : Fin 524288)
    (hb : b.val = t.val * 8192 + p.val) :
    (iblk0 V c 0 t : Vec Ideal S3x8192 .f32) (ix2 d p) = (V c main_v0 : S3x524288.Idx → EReal) (ix2 d b) := by
  obtain ⟨e0, e1, -⟩ := block_indices t
  unfold iblk0
  rw [View.read_apply]
  refine congrArg (V c main_v0) (funext fun a => Fin.ext ?_)
  match a with
  | ⟨0, _⟩ => show win0_0.index t (0 : Fin 2) * 3 + 1 * d.val = d.val; rw [e0]; omega
  | ⟨1, _⟩ => show win0_0.index t (1 : Fin 2) * 8192 + 1 * p.val = b.val; rw [e1, hb]; omega

theorem levels_block (c : Dev nD) (t : Fin cfg0.N) (l : Fin 16) (q : Fin 128) :
    (iblk0 V c 1 t : Vec Ideal S16x128 .f32) (ix2 l q) = (V c main_v2 : S16x128.Idx → EReal) (ix2 l q) := by
  obtain ⟨-, -, e0, e1, -⟩ := block_indices t
  unfold iblk0
  rw [View.read_apply]
  refine congrArg (V c main_v2) (funext fun a => Fin.ext ?_)
  match a with
  | ⟨0, _⟩ => show win0_1.index t (0 : Fin 2) * 16 + 1 * l.val = l.val; rw [e0]; omega
  | ⟨1, _⟩ => show win0_1.index t (1 : Fin 2) * 128 + 1 * q.val = q.val; rw [e1]; omega

theorem sc_block (c : Dev nD) (t : Fin cfg0.N) (l : Fin 16) (d : Fin 3) (p : Fin 8192) (b : Fin 524288)
    (hb : b.val = t.val * 8192 + p.val) :
    blockSc (iblk0 V c 0 t) (iblk0 V c 1 t) l d p = HashGrid.ScK (V c main_v0) (V c main_v2) l d b := by
  unfold blockSc HashGrid.ScK
  rw [points_block V c t d p b hb, levels_block V c t l 0]

theorem ix3_of {n0 n1 n2 : Nat} (i : (⟨3, ![n0, n1, n2]⟩ : Shape).Idx) (a : Fin n0) (b : Fin n1) (c : Fin n2)
    (h0 : (i 0).val = a.val) (h1 : (i 1).val = b.val) (h2 : (i 2).val = c.val) : i = ix3 a b c :=
  funext fun x => Fin.ext (by
    match x with
    | ⟨0, _⟩ => exact h0
    | ⟨1, _⟩ => exact h1
    | ⟨2, _⟩ => exact h2)

theorem flushed_off (c : Dev nD) (t : Fin cfg0.N) :
    (dat0 (F := Ideal) V c).flushed 3 t
      = ((cfg0.win 3).blk t).view.read (Elt Ideal) (HashGrid.OFF (HashGrid.ScK (V c main_v0) (V c main_v2))) := by
  show (cfg0.win 3).cut (grid0.coords t) ((dat0 V c).after 3 t) = _
  rw [after0_3]
  obtain ⟨-, -, -, -, -, -, -, e0, e1, e2⟩ := block_indices t
  refine funext fun (j : S16x3x8192.Idx) => ?_
  obtain ⟨l, d, p, rfl⟩ : ∃ (l : Fin 16) (d : Fin 3) (p : Fin 8192), j = ix3 l d p := ⟨j 0, j 1, j 2, eq_ix3 j⟩
  have ht : t.val < 64 := t.isLt
  refine (out_offsets _ _ l d p).trans ?_
  rw [sc_block V c t l d p ⟨t.val * 8192 + p.val, by omega⟩ rfl, View.read_apply]
  refine (congrArg (HashGrid.OFF (HashGrid.ScK (V c main_v0) (V c main_v2))) (ix3_of _ l d ⟨t.val * 8192 + p.val, by omega⟩ ?_ ?_ ?_)).symm
  · show win0_3.index t (0 : Fin 3) * 16 + 1 * l.val = l.val; rw [e0]; omega
  · show win0_3.index t (1 : Fin 3) * 3 + 1 * d.val = d.val; rw [e1]; omega
  · show win0_3.index t (2 : Fin 3) * 8192 + 1 * p.val = t.val * 8192 + p.val; rw [e2]; omega

theorem flushed_idx (c : Dev nD) (t : Fin cfg0.N) :
    (dat0 (F := Ideal) V c).flushed 2 t
      = ((cfg0.win 2).blk t).view.read (Elt Ideal) (HashGrid.IDX (HashGrid.ScK (V c main_v0) (V c main_v2))) := by
  show (cfg0.win 2).cut (grid0.coords t) ((dat0 V c).after 2 t) = _
  rw [after0_2]
  obtain ⟨-, -, -, -, e0, e1, e2, -⟩ := block_indices t
  refine funext fun (j : S16x8x8192.Idx) => ?_
  obtain ⟨l, k, p, rfl⟩ : ∃ (l : Fin 16) (k : Fin 8) (p : Fin 8192), j = ix3 l k p := ⟨j 0, j 1, j 2, eq_ix3 j⟩
  have ht : t.val < 64 := t.isLt
  refine (out_indices _ _ (ix3 l k p)).trans ?_
  show HashGrid.cornerIdx k l (blockSc _ _ l 0 p) (blockSc _ _ l 1 p) (blockSc _ _ l 2 p) = _
  rw [sc_block V c t l 0 p ⟨t.val * 8192 + p.val, by omega⟩ rfl, sc_block V c t l 1 p ⟨t.val * 8192 + p.val, by omega⟩ rfl, sc_block V c t l 2 p ⟨t.val * 8192 + p.val, by omega⟩ rfl, View.read_apply]
  refine (congrArg (HashGrid.IDX (HashGrid.ScK (V c main_v0) (V c main_v2))) (ix3_of _ l k ⟨t.val * 8192 + p.val, by omega⟩ ?_ ?_ ?_)).symm
  · show win0_2.index t (0 : Fin 3) * 16 + 1 * l.val = l.val; rw [e0]; omega
  · show win0_2.index t (1 : Fin 3) * 8 + 1 * k.val = k.val; rw [e1]; omega
  · show win0_2.index t (2 : Fin 3) * 8192 + 1 * p.val = t.val * 8192 + p.val; rw [e2]; omega

-- The 64 blocks tile the point axis: point b lies in block b / 8192.
theorem covered_off (i : S16x3x524288.Idx) :
    ∃ t : Fin cfg0.N, (cfg0.win 3).flush t = true ∧ i ∈ ((cfg0.win 3).blk t).view.set := by
  have hi0 : (i 0).val < 16 := (i 0).isLt
  have hi1 : (i 1).val < 3 := (i 1).isLt
  have hi2 : (i 2).val < 524288 := (i 2).isLt
  have hN : cfg0.N = 64 := N_0
  obtain ⟨t, ht⟩ : ∃ t : Fin cfg0.N, t.val = (i 2).val / 8192 := ⟨⟨(i 2).val / 8192, by omega⟩, rfl⟩
  refine ⟨t, flush0_3 t, ?_⟩
  obtain ⟨-, -, -, -, -, -, -, e0, e1, e2⟩ := block_indices t
  show i ∈ ((View.whole main_v3_1).slice (win0_3.rect t)).set
  rw [View.set_slice_whole, Rect.mem_set_unit]
  intro a
  match a with
  | ⟨0, _⟩ => show win0_3.index t (0 : Fin 3) * 16 ≤ (i 0).val ∧ (i 0).val < win0_3.index t (0 : Fin 3) * 16 + 16; rw [e0]; omega
  | ⟨1, _⟩ => show win0_3.index t (1 : Fin 3) * 3 ≤ (i 1).val ∧ (i 1).val < win0_3.index t (1 : Fin 3) * 3 + 3; rw [e1]; omega
  | ⟨2, _⟩ => show win0_3.index t (2 : Fin 3) * 8192 ≤ (i 2).val ∧ (i 2).val < win0_3.index t (2 : Fin 3) * 8192 + 8192; rw [e2]; omega

theorem covered_idx (i : S16x8x524288.Idx) :
    ∃ t : Fin cfg0.N, (cfg0.win 2).flush t = true ∧ i ∈ ((cfg0.win 2).blk t).view.set := by
  have hi0 : (i 0).val < 16 := (i 0).isLt
  have hi1 : (i 1).val < 8 := (i 1).isLt
  have hi2 : (i 2).val < 524288 := (i 2).isLt
  have hN : cfg0.N = 64 := N_0
  obtain ⟨t, ht⟩ : ∃ t : Fin cfg0.N, t.val = (i 2).val / 8192 := ⟨⟨(i 2).val / 8192, by omega⟩, rfl⟩
  refine ⟨t, flush0_2 t, ?_⟩
  obtain ⟨-, -, -, -, e0, e1, e2, -⟩ := block_indices t
  show i ∈ ((View.whole main_v3_0).slice (win0_2.rect t)).set
  rw [View.set_slice_whole, Rect.mem_set_unit]
  intro a
  match a with
  | ⟨0, _⟩ => show win0_2.index t (0 : Fin 3) * 16 ≤ (i 0).val ∧ (i 0).val < win0_2.index t (0 : Fin 3) * 16 + 16; rw [e0]; omega
  | ⟨1, _⟩ => show win0_2.index t (1 : Fin 3) * 8 ≤ (i 1).val ∧ (i 1).val < win0_2.index t (1 : Fin 3) * 8 + 8; rw [e1]; omega
  | ⟨2, _⟩ => show win0_2.index t (2 : Fin 3) * 8192 ≤ (i 2).val ∧ (i 2).val < win0_2.index t (2 : Fin 3) * 8192 + 8192; rw [e2]; omega

end Reg0

theorem region0_idx (c : Dev nD) :
    (dat0 (F := Ideal) V c).arrAt 2 cfg0.N = HashGrid.IDX (HashGrid.ScK (V c main_v0) (V c main_v2)) := by
  exact (dat0 (F := Ideal) V c).arrAt_eq_of_cover 2 (HashGrid.IDX (HashGrid.ScK (V c main_v0) (V c main_v2)))
    (fun t _ => Reg0.flushed_idx V c t) Reg0.covered_idx

theorem region0_off (c : Dev nD) :
    (dat0 (F := Ideal) V c).arrAt 3 cfg0.N = HashGrid.OFF (HashGrid.ScK (V c main_v0) (V c main_v2)) := by
  exact (dat0 (F := Ideal) V c).arrAt_eq_of_cover 3 (HashGrid.OFF (HashGrid.ScK (V c main_v0) (V c main_v2)))
    (fun t _ => Reg0.flushed_off V c t) Reg0.covered_off

end Cert.KernelIdeal.Val

end
-- ==== Proof.KReg1.lean ====
import proofs.«423078_j35673998360637_4_alg».proof.Proof.Gen.KernelIdeal.Frame
import proofs.«423078_j35673998360637_4_alg».proof.Proof.Spec
import Idealize.ShloMosaic.Lib.Pipeline.Value
import Idealize.ShloMosaic.Lib.ValueLayout

set_option maxRecDepth 16384

noncomputable section

namespace Cert.KernelIdeal.Val

open Cert.KernelIdeal Cert.KernelIdeal.Gen Idealize.ShloMosaic Idealize.ShloMosaic.TcCoe
open Idealize.SL.Sem Idealize.ShloMosaic.StableHlo Idealize.ShloMosaic.ValueIdx
open Idealize.ShloMosaic.Pipeline (Dat Cfg Window)

variable (V : (c : Dev nD) → (b : Ref sig .tc) → Buf (Elt Ideal) ((c : Thread nD τ).loc b))

namespace Blend

-- Dropping the two unit axes keeps the row-major position, so entry (f, p) of the row is entry (o0, o1, f, p) of the block.
theorem corner_read (x0 : Vec Ideal S16x8x2x8192 .f32) (o0 o1 : Nat)
    (inb : ∀ a, (![o0, o1, 0, 0] : Fin 4 → Nat) a + S1x1x2x8192.size a ≤ S16x8x2x8192.size a) (f : Fin 2) (p : Fin 8192) :
    (shapeCast S2x8192 (View.ld x0 (Rect.unit (s := S16x8x2x8192) ![o0, o1, 0, 0] S1x1x2x8192.size inb)) shapeCasts_S1x1x2x8192_S2x8192 : FVec Ideal S2x8192 .f32) (ix2 f p)
      = x0 (ix4 (⟨o0, by have := inb 0; simpa using this⟩ : Fin 16) (⟨o1, by have := inb 1; simpa using this⟩ : Fin 8) f p) := by
  refine (shapeCast_apply (s := S1x1x2x8192) (t := S2x8192) _ _ (ix2 f p) (ix4 (0 : Fin 1) (0 : Fin 1) f p) ?_).trans ?_
  · rw [Shape.rowMajor_val_four, Shape.rowMajor_val_two]
    show ((0 * 1 + 0) * 2 + f.val) * 8192 + p.val = f.val * 8192 + p.val
    omega
  · refine congrArg x0 (funext fun a => Fin.ext ?_)
    match a with
    | ⟨0, _⟩ => show o0 + 1 * 0 = o0; omega
    | ⟨1, _⟩ => show o1 + 1 * 0 = o1; omega
    | ⟨2, _⟩ => show 0 + 1 * f.val = f.val; omega
    | ⟨3, _⟩ => show 0 + 1 * p.val = p.val; omega

theorem offset_read (x1 : Vec Ideal S16x3x8192 .f32) (o0 o1 : Nat)
    (inb : ∀ a, (![o0, o1, 0] : Fin 3 → Nat) a + S1x1x8192.size a ≤ S16x3x8192.size a) (p : Fin 8192) :
    (shapeCast S1x8192 (View.ld x1 (Rect.unit (s := S16x3x8192) ![o0, o1, 0] S1x1x8192.size inb)) shapeCasts_S1x1x8192_S1x8192 : FVec Ideal S1x8192 .f32) (ix2 (0 : Fin 1) p)
      = x1 (ix3 (⟨o0, by have := inb 0; simpa using this⟩ : Fin 16) (⟨o1, by have := inb 1; simpa using this⟩ : Fin 3) p) := by
  refine (shapeCast_apply (s := S1x1x8192) (t := S1x8192) _ _ (ix2 (0 : Fin 1) p) (ix3 (0 : Fin 1) (0 : Fin 1) p) ?_).trans ?_
  · rw [Shape.rowMajor_val_three, Shape.rowMajor_val_two]
    show (0 * 1 + 0) * 8192 + p.val = 0 * 8192 + p.val
    omega
  · refine congrArg x1 (funext fun a => Fin.ext ?_)
    match a with
    | ⟨0, _⟩ => show o0 + 1 * 0 = o0; omega
    | ⟨1, _⟩ => show o1 + 1 * 0 = o1; omega
    | ⟨2, _⟩ => show 0 + 1 * p.val = p.val; omega

theorem row_read (v : FVec Ideal S1x8192 .f32) (f : Fin 2) (p : Fin 8192) :
    broadcastTo S2x8192 v broadcasts_S1x8192_S2x8192 (ix2 f p) = v (ix2 (0 : Fin 1) p) :=
  broadcastTo_1b_ab_apply v broadcasts_S1x8192_S2x8192 f p

theorem hz2 : (![0, 0] : Fin 2 → Nat) = fun _ => 0 := funext fun a => match a with | ⟨0, _⟩ => rfl | ⟨1, _⟩ => rfl

-- Piece l of the stack starts at row 2 l, and the transpose swaps the two coordinates.
theorem stack_read (v0 v1 v2 v3 v4 v5 v6 v7 v8 v9 v10 v11 v12 v13 v14 v15 : FVec Ideal S2x8192 .f32)
    (l : Fin 16) (f : Fin 2) (p : Fin 8192) (c : Fin 32) (hc : c.val = 2 * l.val + f.val) (w : FVec Ideal S2x8192 .f32)
    (hw : ([⟨S2x8192, v0⟩, ⟨S2x8192, v1⟩, ⟨S2x8192, v2⟩, ⟨S2x8192, v3⟩, ⟨S2x8192, v4⟩, ⟨S2x8192, v5⟩, ⟨S2x8192, v6⟩, ⟨S2x8192, v7⟩, ⟨S2x8192, v8⟩, ⟨S2x8192, v9⟩, ⟨S2x8192, v10⟩, ⟨S2x8192, v11⟩, ⟨S2x8192, v12⟩, ⟨S2x8192, v13⟩, ⟨S2x8192, v14⟩, ⟨S2x8192, v15⟩] : List ((s : Shape) × (s.Idx → Ideal .f32)))[l.val]'(by simpa using l.isLt) = ⟨S2x8192, w⟩) :
    k1_pay2 v0 v1 v2 v3 v4 v5 v6 v7 v8 v9 v10 v11 v12 v13 v14 v15 (ix2 p c) = w (ix2 f p) := by
  unfold k1_pay2
  refine (transpose_ix2_apply _ transposes_S32x8192_p1_0_S8192x32 p c).trans ?_
  refine concatenate_apply_piece (t := S32x8192) 0 _ _ (ix2 c p) l.val (by simpa using l.isLt) S2x8192 w hw rfl (2 * l.val) ?_ (ix2 f p) ?_ ?_
  · rw [List.map_take]
    exact (by decide : ∀ K < 16, ((List.take K (List.replicate 16 S2x8192)).map fun s : Shape => if h : s.rank = S32x8192.rank then s.size ((0 : Fin S32x8192.rank).cast h.symm) else 0).sum = 2 * K) l.val l.isLt
  · intro b hb
    match b with
    | ⟨0, _⟩ => exact absurd rfl hb
    | ⟨1, _⟩ => rfl
  · show 2 * l.val + f.val = c.val
    omega

-- Every level's two columns come from the same arithmetic on that level's rows, so one argument serves all sixteen.
theorem out_apply (x0 : Vec Ideal S16x8x2x8192 .f32) (x1 : Vec Ideal S16x3x8192 .f32) (l : Fin 16) (f : Fin 2) (p : Fin 8192)
    (c : Fin 32) (hc : c.val = 2 * l.val + f.val) :
    out1_2 x0 x1 (ix2 p c)
      = HashGrid.blend (x0 (ix4 l (0 : Fin 8) f p)) (x0 (ix4 l (1 : Fin 8) f p)) (x0 (ix4 l (2 : Fin 8) f p)) (x0 (ix4 l (3 : Fin 8) f p))
        (x0 (ix4 l (4 : Fin 8) f p)) (x0 (ix4 l (5 : Fin 8) f p)) (x0 (ix4 l (6 : Fin 8) f p)) (x0 (ix4 l (7 : Fin 8) f p))
        (x1 (ix3 l (0 : Fin 3) p)) (x1 (ix3 l (1 : Fin 3) p)) (x1 (ix3 l (2 : Fin 3) p)) := by
  unfold out1_2
  rw [View.canon_unit_zero hz2]
  match l with
  | ⟨0, _⟩ | ⟨1, _⟩ | ⟨2, _⟩ | ⟨3, _⟩ | ⟨4, _⟩ | ⟨5, _⟩ | ⟨6, _⟩ | ⟨7, _⟩
  | ⟨8, _⟩ | ⟨9, _⟩ | ⟨10, _⟩ | ⟨11, _⟩ | ⟨12, _⟩ | ⟨13, _⟩ | ⟨14, _⟩ | ⟨15, _⟩ =>
    refine (stack_read _ _ _ _ _ _ _ _ _ _ _ _ _ _ _ _ _ f p c hc _ rfl).trans ?_
    simp only [
      k1_pay1, k1_pay3, k1_pay4, k1_pay5, k1_pay6, k1_pay7, k1_pay8, k1_pay9, k1_pay10, k1_pay11, k1_pay12, k1_pay13,
      k1_pay14, k1_pay15, k1_pay16, k1_pay17, k1_pay18, k1_pay19, k1_pay20, k1_pay21, k1_pay22, k1_pay23, k1_pay24,
      k1_pay25, k1_pay26, k1_pay27, k1_pay28, k1_pay29, k1_pay30, k1_pay31, k1_pay32, k1_pay33, k1_pay34, k1_pay35,
      k1_pay36, k1_pay37, k1_pay38, k1_pay39, k1_pay40, k1_pay41, k1_pay42, k1_pay43, k1_pay44, k1_pay45, k1_pay46,
      k1_pay47, k1_pay48, k1_pay49, k1_pay50, k1_pay51, k1_pay52, k1_pay53, k1_pay54, k1_pay55, k1_pay56, k1_pay57,
      k1_pay58, k1_pay59, k1_pay60, k1_pay61, k1_pay62, k1_pay63, k1_pay64, k1_pay65, k1_pay66, k1_pay67, k1_pay68,
      k1_pay69, k1_pay70, k1_pay71, k1_pay72, k1_pay73, k1_pay74, k1_pay75, k1_pay76, k1_pay77, k1_pay78, k1_pay79,
      k1_pay80, k1_pay81, k1_pay82, k1_pay83, k1_pay84, k1_pay85, k1_pay86, k1_pay87, k1_pay88, k1_pay89, k1_pay90,
      k1_pay91, k1_pay92, k1_pay93, k1_pay94, k1_pay95, k1_pay96, k1_pay97, k1_pay98, k1_pay99, k1_pay100, k1_pay101,
      k1_pay102, k1_pay103, k1_pay104, k1_pay105, k1_pay106, k1_pay107, k1_pay108, k1_pay109, k1_pay110, k1_pay111,
      k1_pay112, k1_pay113, k1_pay114, k1_pay115, k1_pay116, k1_pay117, k1_pay118, k1_pay119, k1_pay120, k1_pay121,
      k1_pay122, k1_pay123, k1_pay124, k1_pay125, k1_pay126, k1_pay127, k1_pay128, k1_pay129, k1_pay130, k1_pay131,
      k1_pay132, k1_pay133, k1_pay134, k1_pay135, k1_pay136, k1_pay137, k1_pay138, k1_pay139, k1_pay140, k1_pay141,
      k1_pay142, k1_pay143, k1_pay144, k1_pay145, k1_pay146, k1_pay147, k1_pay148, k1_pay149, k1_pay150, k1_pay151,
      k1_pay152, k1_pay153, k1_pay154, k1_pay155, k1_pay156, k1_pay157, k1_pay158, k1_pay159, k1_pay160, k1_pay161,
      k1_pay162, k1_pay163, k1_pay164, k1_pay165, k1_pay166, k1_pay167, k1_pay168, k1_pay169, k1_pay170, k1_pay171,
      k1_pay172, k1_pay173, k1_pay174, k1_pay175, k1_pay176, k1_pay177, k1_pay178, k1_pay179, k1_pay180, k1_pay181,
      k1_pay182, k1_pay183, k1_pay184, k1_pay185, k1_pay186, k1_pay187, k1_pay188, k1_pay189, k1_pay190, k1_pay191,
      k1_pay192, k1_pay193, k1_pay194, k1_pay195, k1_pay196, k1_pay197, k1_pay198, k1_pay199, k1_pay200, k1_pay201,
      k1_pay202, k1_pay203, k1_pay204,
      r1_0, r1_1, r1_2, r1_3, r1_4, r1_5, r1_6, r1_7, r1_8, r1_9, r1_10, r1_11, r1_12, r1_13, r1_14, r1_15, r1_16,
      r1_17, r1_18, r1_19, r1_20, r1_21, r1_22, r1_23, r1_24, r1_25, r1_26, r1_27, r1_28, r1_29, r1_30, r1_31, r1_32,
      r1_33, r1_34, r1_35, r1_36, r1_37, r1_38, r1_39, r1_40, r1_41, r1_42, r1_43, r1_44, r1_45, r1_46, r1_47, r1_48,
      r1_49, r1_50, r1_51, r1_52, r1_53, r1_54, r1_55, r1_56, r1_57, r1_58, r1_59, r1_60, r1_61, r1_62, r1_63, r1_64,
      r1_65, r1_66, r1_67, r1_68, r1_69, r1_70, r1_71, r1_72, r1_73, r1_74, r1_75, r1_76, r1_77, r1_78, r1_79, r1_80,
      r1_81, r1_82, r1_83, r1_84, r1_85, r1_86, r1_87, r1_88, r1_89, r1_90, r1_91, r1_92, r1_93, r1_94, r1_95, r1_96,
      r1_97, r1_98, r1_99, r1_100, r1_101, r1_102, r1_103, r1_104, r1_105, r1_106, r1_107, r1_108, r1_109, r1_110,
      r1_111, r1_112, r1_113, r1_114, r1_115, r1_116, r1_117, r1_118, r1_119, r1_120, r1_121, r1_122, r1_123, r1_124,
      r1_125, r1_126, r1_127, r1_128, r1_129, r1_130, r1_131, r1_132, r1_133, r1_134, r1_135, r1_136, r1_137, r1_138,
      r1_139, r1_140, r1_141, r1_142, r1_143, r1_144, r1_145, r1_146, r1_147, r1_148, r1_149, r1_150, r1_151, r1_152,
      r1_153, r1_154, r1_155, r1_156, r1_157, r1_158, r1_159, r1_160, r1_161, r1_162, r1_163, r1_164, r1_165, r1_166,
      r1_167, r1_168, r1_169, r1_170, r1_171, r1_172, r1_173, r1_174, r1_175,
      addf_apply, mulf_apply, subf_apply, broadcast_apply, row_read, corner_read, offset_read]
    rfl
  | ⟨K + 16, h⟩ => exact absurd h (by omega)

theorem idx_facts : ∀ t : Fin cfg1.N,
    win1_0.index t (0 : Fin 4) = 0 ∧ win1_0.index t (1 : Fin 4) = 0 ∧ win1_0.index t (2 : Fin 4) = 0 ∧ win1_0.index t (3 : Fin 4) = t.val
    ∧ win1_1.index t (0 : Fin 3) = 0 ∧ win1_1.index t (1 : Fin 3) = 0 ∧ win1_1.index t (2 : Fin 3) = t.val
    ∧ win1_2.index t (0 : Fin 2) = t.val ∧ win1_2.index t (1 : Fin 2) = 0 :=
  (by decide +kernel : ∀ t : Fin grid1.N, _)

theorem corner_block (c : Dev nD) (t : Fin cfg1.N) (l : Fin 16) (k : Fin 8) (f : Fin 2) (p : Fin 8192) (b : Fin 524288)
    (hb : b.val = t.val * 8192 + p.val) :
    (iblk1 V c 0 t : Vec Ideal S16x8x2x8192 .f32) (ix4 l k f p) = (V c main_v24 : HashGrid.SC.Idx → EReal) (ix4 l k f b) := by
  obtain ⟨e0, e1, e2, e3, -⟩ := idx_facts t
  unfold iblk1
  rw [View.read_apply]
  show V c main_v24 _ = V c main_v24 _
  congr 1
  funext a
  apply Fin.ext
  match a with
  | ⟨0, _⟩ => show win1_0.index t (0 : Fin 4) * 16 + 1 * l.val = l.val; rw [e0]; omega
  | ⟨1, _⟩ => show win1_0.index t (1 : Fin 4) * 8 + 1 * k.val = k.val; rw [e1]; omega
  | ⟨2, _⟩ => show win1_0.index t (2 : Fin 4) * 2 + 1 * f.val = f.val; rw [e2]; omega
  | ⟨3, _⟩ => show win1_0.index t (3 : Fin 4) * 8192 + 1 * p.val = b.val; rw [e3, hb]; omega

theorem offset_block (c : Dev nD) (t : Fin cfg1.N) (l : Fin 16) (d : Fin 3) (p : Fin 8192) (b : Fin 524288)
    (hb : b.val = t.val * 8192 + p.val) :
    (iblk1 V c 1 t : Vec Ideal S16x3x8192 .f32) (ix3 l d p) = (V c main_v3_1 : HashGrid.SO.Idx → EReal) (ix3 l d b) := by
  obtain ⟨-, -, -, -, e0, e1, e2, -⟩ := idx_facts t
  unfold iblk1
  rw [View.read_apply]
  show V c main_v3_1 _ = V c main_v3_1 _
  congr 1
  funext a
  apply Fin.ext
  match a with
  | ⟨0, _⟩ => show win1_1.index t (0 : Fin 3) * 16 + 1 * l.val = l.val; rw [e0]; omega
  | ⟨1, _⟩ => show win1_1.index t (1 : Fin 3) * 3 + 1 * d.val = d.val; rw [e1]; omega
  | ⟨2, _⟩ => show win1_1.index t (2 : Fin 3) * 8192 + 1 * p.val = b.val; rw [e2, hb]; omega

-- The blend is entrywise in the point, so it commutes with restricting the point axis to a block.
theorem block_eq (x0 : Vec Ideal S16x8x2x8192 .f32) (x1 : Vec Ideal S16x3x8192 .f32)
    (C : HashGrid.SC.Idx → EReal) (O : HashGrid.SO.Idx → EReal) (T : Nat)
    (h0 : ∀ (l : Fin 16) (k : Fin 8) (f : Fin 2) (p : Fin 8192) (b : Fin 524288), b.val = T * 8192 + p.val →
      x0 (ix4 l k f p) = C (ix4 l k f b))
    (h1 : ∀ (l : Fin 16) (d : Fin 3) (p : Fin 8192) (b : Fin 524288), b.val = T * 8192 + p.val →
      x1 (ix3 l d p) = O (ix3 l d b))
    (p : Fin 8192) (q : Fin 32) (i : HashGrid.SR.Idx) (hi0 : (i 0).val = T * 8192 + p.val) (hi1 : (i 1).val = q.val) :
    out1_2 x0 x1 (ix2 p q) = HashGrid.BL C O i := by
  have hq : q.val < 32 := q.isLt
  have hl : (⟨(i 1).val / 2, by have h32 : (i 1).val < 32 := (i 1).isLt; omega⟩ : Fin 16) = ⟨q.val / 2, by omega⟩ :=
    Fin.ext (by show (i 1).val / 2 = q.val / 2; rw [hi1])
  have hf : (⟨(i 1).val % 2, by omega⟩ : Fin 2) = ⟨q.val % 2, by omega⟩ :=
    Fin.ext (by show (i 1).val % 2 = q.val % 2; rw [hi1])
  rw [out_apply x0 x1 ⟨q.val / 2, by omega⟩ ⟨q.val % 2, by omega⟩ p q (by show q.val = 2 * (q.val / 2) + q.val % 2; omega)]
  unfold HashGrid.BL
  simp only [hl, hf]
  rw [h0 _ 0 _ p ⟨(i 0).val, (i 0).isLt⟩ hi0, h0 _ 1 _ p ⟨(i 0).val, (i 0).isLt⟩ hi0, h0 _ 2 _ p ⟨(i 0).val, (i 0).isLt⟩ hi0,
    h0 _ 3 _ p ⟨(i 0).val, (i 0).isLt⟩ hi0, h0 _ 4 _ p ⟨(i 0).val, (i 0).isLt⟩ hi0, h0 _ 5 _ p ⟨(i 0).val, (i 0).isLt⟩ hi0,
    h0 _ 6 _ p ⟨(i 0).val, (i 0).isLt⟩ hi0, h0 _ 7 _ p ⟨(i 0).val, (i 0).isLt⟩ hi0,
    h1 _ 0 p ⟨(i 0).val, (i 0).isLt⟩ hi0, h1 _ 1 p ⟨(i 0).val, (i 0).isLt⟩ hi0, h1 _ 2 p ⟨(i 0).val, (i 0).isLt⟩ hi0]

theorem flushed_eq (c : Dev nD) (t : Fin cfg1.N) :
    (dat1 (F := Ideal) V c).flushed 2 t
      = ((cfg1.win 2).blk t).view.read (Elt Ideal) (HashGrid.BL (V c main_v24) (V c main_v3_1)) := by
  show (cfg1.win 2).cut (grid1.coords t) ((dat1 V c).after 2 t) = _
  rw [after1_2]
  obtain ⟨-, -, -, -, -, -, -, e0, e1⟩ := idx_facts t
  refine funext fun (j : S8192x32.Idx) => ?_
  obtain ⟨p, q, rfl⟩ : ∃ (p : Fin 8192) (q : Fin 32), j = ix2 p q := ⟨j 0, j 1, eq_ix2 j⟩
  rw [View.read_apply]
  refine block_eq (iblk1 V c 0 t) (iblk1 V c 1 t) (V c main_v24) (V c main_v3_1) t.val
    (fun l k f p b hb => corner_block V c t l k f p b hb) (fun l d p b hb => offset_block V c t l d p b hb) p q _ ?_ ?_
  · show win1_2.index t (0 : Fin 2) * 8192 + 1 * p.val = t.val * 8192 + p.val
    rw [e0]; omega
  · show win1_2.index t (1 : Fin 2) * 32 + 1 * q.val = q.val
    rw [e1]; omega

theorem mem_blk (t : Fin cfg1.N) (i : S524288x32.Idx) :
    i ∈ ((cfg1.win 2).blk t).view.set ↔ ∀ a : Fin 2, win1_2.index t a * S8192x32.size a ≤ (i a).val ∧ (i a).val < win1_2.index t a * S8192x32.size a + S8192x32.size a := by
  show i ∈ ((View.whole main_v25).slice (win1_2.rect t)).set ↔ _
  rw [View.set_slice_whole, Rect.mem_set_unit]
  exact Iff.rfl

end Blend

-- The 64 blocks tile the point axis: row b of the result lies in block b / 8192.
theorem region1_out (c : Dev nD) :
    (dat1 (F := Ideal) V c).arrAt 2 cfg1.N = HashGrid.BL (V c main_v24) (V c main_v3_1) := by
  have hN : cfg1.N = 64 := N_1
  refine (dat1 (F := Ideal) V c).arrAt_eq_of_cover 2 (HashGrid.BL (V c main_v24) (V c main_v3_1)) (fun t _ => Blend.flushed_eq V c t) fun i => ?_
  have hi0 : ((i : S524288x32.Idx) 0).val < 524288 := ((i : S524288x32.Idx) 0).isLt
  have hi1 : ((i : S524288x32.Idx) 1).val < 32 := ((i : S524288x32.Idx) 1).isLt
  refine ⟨⟨((i : S524288x32.Idx) 0).val / 8192, by rw [hN]; omega⟩, flush1_2 _, ?_⟩
  obtain ⟨-, -, -, -, -, -, -, e0, e1⟩ := Blend.idx_facts ⟨((i : S524288x32.Idx) 0).val / 8192, by rw [hN]; omega⟩
  rw [Blend.mem_blk]
  intro a
  match a with
  | ⟨0, _⟩ =>
    show win1_2.index _ (0 : Fin 2) * 8192 ≤ ((i : S524288x32.Idx) 0).val ∧ ((i : S524288x32.Idx) 0).val < win1_2.index _ (0 : Fin 2) * 8192 + 8192
    rw [e0]
    show ((i : S524288x32.Idx) 0).val / 8192 * 8192 ≤ _ ∧ _ < ((i : S524288x32.Idx) 0).val / 8192 * 8192 + 8192
    omega
  | ⟨1, _⟩ =>
    show win1_2.index _ (1 : Fin 2) * 32 ≤ ((i : S524288x32.Idx) 1).val ∧ ((i : S524288x32.Idx) 1).val < win1_2.index _ (1 : Fin 2) * 32 + 32
    rw [e1]
    omega

end Cert.KernelIdeal.Val

end
-- ==== Proof.KValue.lean ====
import proofs.«423078_j35673998360637_4_alg».proof.Proof.Gen.KernelIdeal.Frame
import proofs.«423078_j35673998360637_4_alg».proof.Proof.Spec
import proofs.«423078_j35673998360637_4_alg».proof.Proof.KHost
import proofs.«423078_j35673998360637_4_alg».proof.Proof.KReg0
import proofs.«423078_j35673998360637_4_alg».proof.Proof.KReg1

set_option maxRecDepth 16384

noncomputable section

namespace Cert.KernelIdeal.Val

open Cert.KernelIdeal Cert.KernelIdeal.Gen Idealize.ShloMosaic Idealize.ShloMosaic.TcCoe
open Idealize.SL.Sem Idealize.ShloMosaic.StableHlo

variable (m : (ℓ : Loc nD τ sig) → Buf (Elt Ideal) ℓ) (ρ : Dev nD → PrngReg)

-- The result is the second stage's blend of the table looked up at the first stage's row indices, by the first stage's offsets.
theorem kernel_value (c : Dev nD) :
    W4 (F := Ideal) m ρ c (Proc.devRef .tc main_v25)
      = HashGrid.OUT (m ((c : Thread nD τ).loc main_arg0)) (m ((c : Thread nD τ).loc main_arg1)) := by

  have e1 : W4 (F := Ideal) m ρ c (Proc.devRef .tc main_v25) = (dat1 (V3 m ρ) c).arrAt 2 cfg1.N := W4_arr m ρ c 2

  have e2 : V3 (F := Ideal) m ρ c main_v24
      = HashGrid.CORN (W2 m ρ c (Proc.devRef .tc main_arg1)) (W2 m ρ c (Proc.devRef .tc main_v3_0)) :=
    host1_corners (W2 m ρ c)
  have e3 : V3 (F := Ideal) m ρ c main_v3_1 = W2 m ρ c (Proc.devRef .tc main_v3_1) := host1_off (W2 m ρ c)

  have e4 : W2 (F := Ideal) m ρ c (Proc.devRef .tc main_v3_0) = (dat0 (V1 m ρ) c).arrAt 2 cfg0.N := W2_arr m ρ c 2
  have e5 : W2 (F := Ideal) m ρ c (Proc.devRef .tc main_v3_1) = (dat0 (V1 m ρ) c).arrAt 3 cfg0.N := W2_arr m ρ c 3

  have e6 : W2 (F := Ideal) m ρ c (Proc.devRef .tc main_arg1) = m ((c : Thread nD τ).loc main_arg1) :=
    (W2_of_ne m ρ c main_arg1 (by decide)).trans (host0_arg1 (W0 m ρ c))

  have e7 : HashGrid.ScK (V1 (F := Ideal) m ρ c main_v0) (V1 m ρ c main_v2)
      = HashGrid.ScX (m ((c : Thread nD τ).loc main_arg0)) := host0_scaled (W0 m ρ c)
  rw [e1, region1_out, e2, e3, e4, e5, region0_idx, region0_off, e6, e7]
  rfl

end Cert.KernelIdeal.Val

end
-- ==== Proof.ROpsList.lean ====
import proofs.«423078_j35673998360637_4_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

abbrev pre : List (HloOp τ sig (Elt F)) :=
  [ StableHlo.nullary main_cst (fun i => FloatOps.ofBits .f32 (lit0 (S16.rowMajor i))),
    StableHlo.nullary main_c (fun i => lit1 (S3.rowMajor i)),
    StableHlo.nullary main_c_0 (fun i => lit2 (S16.rowMajor i)),
    StableHlo.unary main_arg0 main_v0 (broadcastInDim S524288x1x3 ![0, 2] bcast_S524288x3_S524288x1x3_0_2),
    StableHlo.unary main_cst main_v1 (broadcastInDim S1x16x1 ![1] bcast_S16_S1x16x1_1),
    StableHlo.unary main_v0 main_v2 (broadcastInDim S524288x16x3 ![0, 1, 2] bcast_S524288x1x3_S524288x16x3_0_1_2),
    StableHlo.unary main_v1 main_v3 (broadcastInDim S524288x16x3 ![0, 1, 2] bcast_S1x16x1_S524288x16x3_0_1_2),
    StableHlo.binary main_v2 main_v3 main_v4 mulf,
    StableHlo.unary main_v4 main_v5 Host.ceil,
    StableHlo.unary main_v5 main_v6 (fptosi 32),
    StableHlo.unary main_v4 main_v7 Host.floor,
    StableHlo.unary main_v7 main_v8 (fptosi 32),
    StableHlo.unary main_v8 main_v9 (sitofp .f32),
    StableHlo.binary main_v4 main_v9 main_v10 subf,
    StableHlo.unary main_v6 main_v11 id,
    StableHlo.unary main_v8 main_v12 id ]

abbrev cor0 : List (HloOp τ sig (Elt F)) :=
  [ StableHlo.unary main_v11 main_v13 (extractStridedSlice S524288x16x1 ![0, 0, 0] · slices_S524288x16x3_S524288x16x1_0_0_0),
    StableHlo.reshape main_v13 main_v14 rfl shapeCasts_S524288x16x1_S524288x16,
    StableHlo.unary main_v11 main_v15 (extractStridedSlice S524288x16x1 ![0, 0, 1] · slices_S524288x16x3_S524288x16x1_0_0_1),
    StableHlo.reshape main_v15 main_v16 rfl shapeCasts_S524288x16x1_S524288x16,
    StableHlo.unary main_v11 main_v17 (extractStridedSlice S524288x16x1 ![0, 0, 2] · slices_S524288x16x3_S524288x16x1_0_0_2),
    StableHlo.reshape main_v17 main_v18 rfl shapeCasts_S524288x16x1_S524288x16,
    StableHlo.unary main_v14 main_v19 (broadcastInDim S524288x16x1 ![0, 1] bcast_S524288x16_S524288x16x1_0_1),
    StableHlo.unary main_v16 main_v20 (broadcastInDim S524288x16x1 ![0, 1] bcast_S524288x16_S524288x16x1_0_1),
    StableHlo.unary main_v18 main_v21 (broadcastInDim S524288x16x1 ![0, 1] bcast_S524288x16_S524288x16x1_0_1),
    StableHlo.nary ![main_v19, main_v20, main_v21] main_v22 (fun u => concatenate S524288x16x3 2 [⟨S524288x16x1, u 0⟩, ⟨S524288x16x1, u 1⟩, ⟨S524288x16x1, u 2⟩] concatenates_S524288x16x1_S524288x16x1_S524288x16x1_S524288x16x3_d2),
    StableHlo.unary main_c main_v23 (broadcastInDim S1x1x3 ![2] bcast_S3_S1x1x3_2),
    StableHlo.unary main_v23 main_v24 (broadcastInDim S524288x16x3 ![0, 1, 2] bcast_S1x1x3_S524288x16x3_0_1_2),
    StableHlo.binary main_v22 main_v24 main_v25 muli,
    StableHlo.unary main_v25 main_v26 (extractStridedSlice S524288x16x1 ![0, 0, 0] · slices_S524288x16x3_S524288x16x1_0_0_0),
    StableHlo.reshape main_v26 main_v27 rfl shapeCasts_S524288x16x1_S524288x16,
    StableHlo.unary main_v25 main_v28 (extractStridedSlice S524288x16x1 ![0, 0, 1] · slices_S524288x16x3_S524288x16x1_0_0_1),
    StableHlo.reshape main_v28 main_v29 rfl shapeCasts_S524288x16x1_S524288x16,
    StableHlo.binary main_v27 main_v29 main_v30 xori,
    StableHlo.unary main_v25 main_v31 (extractStridedSlice S524288x16x1 ![0, 0, 2] · slices_S524288x16x3_S524288x16x1_0_0_2),
    StableHlo.reshape main_v31 main_v32 rfl shapeCasts_S524288x16x1_S524288x16,
    StableHlo.binary main_v30 main_v32 main_v33 xori,
    StableHlo.nullary main_c_1 (constantI S_ 32 524287#32),
    StableHlo.unary main_c_1 main_v34 (broadcastInDim S524288x16 ![] bcast_S_S524288x16),
    StableHlo.binary main_v33 main_v34 main_v35 andi,
    StableHlo.unary main_v35 main_v36 id,
    StableHlo.unary main_c_0 main_v37 (broadcastInDim S1x16 ![1] bcast_S16_S1x16_1),
    StableHlo.unary main_v37 main_v38 (broadcastInDim S524288x16 ![0, 1] bcast_S1x16_S524288x16_0_1),
    StableHlo.binary main_v36 main_v38 main_v39 addi,
    StableHlo.nullary main_c_2 (constantI S_ 32 0#32),
    StableHlo.unary main_c_2 main_v40 (broadcastInDim S524288x16 ![] bcast_S_S524288x16),
    StableHlo.binary main_v39 main_v40 main_v41 (cmpi .slt),
    StableHlo.nullary main_c_3 (constantI S_ 32 8388608#32),
    StableHlo.unary main_c_3 main_v42 (broadcastInDim S524288x16 ![] bcast_S_S524288x16),
    StableHlo.binary main_v39 main_v42 main_v43 addi,
    StableHlo.ternary main_v41 main_v43 main_v39 main_v44 select,
    StableHlo.unary main_v44 main_v45 (broadcastInDim S524288x16x1 ![0, 1] bcast_S524288x16_S524288x16x1_0_1),
    StableHlo.binary main_arg1 main_v45 main_v46 (fun x i => Host.gather gather_S8388608x2_S524288x16x1_S524288x16x2_2_0_n_n_0_2_12 x i) ]

abbrev cor1 : List (HloOp τ sig (Elt F)) :=
  [ StableHlo.unary main_v11 main_v47 (extractStridedSlice S524288x16x1 ![0, 0, 0] · slices_S524288x16x3_S524288x16x1_0_0_0),
    StableHlo.reshape main_v47 main_v48 rfl shapeCasts_S524288x16x1_S524288x16,
    StableHlo.unary main_v12 main_v49 (extractStridedSlice S524288x16x1 ![0, 0, 1] · slices_S524288x16x3_S524288x16x1_0_0_1),
    StableHlo.reshape main_v49 main_v50 rfl shapeCasts_S524288x16x1_S524288x16,
    StableHlo.unary main_v11 main_v51 (extractStridedSlice S524288x16x1 ![0, 0, 2] · slices_S524288x16x3_S524288x16x1_0_0_2),
    StableHlo.reshape main_v51 main_v52 rfl shapeCasts_S524288x16x1_S524288x16,
    StableHlo.unary main_v48 main_v53 (broadcastInDim S524288x16x1 ![0, 1] bcast_S524288x16_S524288x16x1_0_1),
    StableHlo.unary main_v50 main_v54 (broadcastInDim S524288x16x1 ![0, 1] bcast_S524288x16_S524288x16x1_0_1),
    StableHlo.unary main_v52 main_v55 (broadcastInDim S524288x16x1 ![0, 1] bcast_S524288x16_S524288x16x1_0_1),
    StableHlo.nary ![main_v53, main_v54, main_v55] main_v56 (fun u => concatenate S524288x16x3 2 [⟨S524288x16x1, u 0⟩, ⟨S524288x16x1, u 1⟩, ⟨S524288x16x1, u 2⟩] concatenates_S524288x16x1_S524288x16x1_S524288x16x1_S524288x16x3_d2),
    StableHlo.unary main_c main_v57 (broadcastInDim S1x1x3 ![2] bcast_S3_S1x1x3_2),
    StableHlo.unary main_v57 main_v58 (broadcastInDim S524288x16x3 ![0, 1, 2] bcast_S1x1x3_S524288x16x3_0_1_2),
    StableHlo.binary main_v56 main_v58 main_v59 muli,
    StableHlo.unary main_v59 main_v60 (extractStridedSlice S524288x16x1 ![0, 0, 0] · slices_S524288x16x3_S524288x16x1_0_0_0),
    StableHlo.reshape main_v60 main_v61 rfl shapeCasts_S524288x16x1_S524288x16,
    StableHlo.unary main_v59 main_v62 (extractStridedSlice S524288x16x1 ![0, 0, 1] · slices_S524288x16x3_S524288x16x1_0_0_1),
    StableHlo.reshape main_v62 main_v63 rfl shapeCasts_S524288x16x1_S524288x16,
    StableHlo.binary main_v61 main_v63 main_v64 xori,
    StableHlo.unary main_v59 main_v65 (extractStridedSlice S524288x16x1 ![0, 0, 2] · slices_S524288x16x3_S524288x16x1_0_0_2),
    StableHlo.reshape main_v65 main_v66 rfl shapeCasts_S524288x16x1_S524288x16,
    StableHlo.binary main_v64 main_v66 main_v67 xori,
    StableHlo.nullary main_c_4 (constantI S_ 32 524287#32),
    StableHlo.unary main_c_4 main_v68 (broadcastInDim S524288x16 ![] bcast_S_S524288x16),
    StableHlo.binary main_v67 main_v68 main_v69 andi,
    StableHlo.unary main_v69 main_v70 id,
    StableHlo.unary main_c_0 main_v71 (broadcastInDim S1x16 ![1] bcast_S16_S1x16_1),
    StableHlo.unary main_v71 main_v72 (broadcastInDim S524288x16 ![0, 1] bcast_S1x16_S524288x16_0_1),
    StableHlo.binary main_v70 main_v72 main_v73 addi,
    StableHlo.nullary main_c_5 (constantI S_ 32 0#32),
    StableHlo.unary main_c_5 main_v74 (broadcastInDim S524288x16 ![] bcast_S_S524288x16),
    StableHlo.binary main_v73 main_v74 main_v75 (cmpi .slt),
    StableHlo.nullary main_c_6 (constantI S_ 32 8388608#32),
    StableHlo.unary main_c_6 main_v76 (broadcastInDim S524288x16 ![] bcast_S_S524288x16),
    StableHlo.binary main_v73 main_v76 main_v77 addi,
    StableHlo.ternary main_v75 main_v77 main_v73 main_v78 select,
    StableHlo.unary main_v78 main_v79 (broadcastInDim S524288x16x1 ![0, 1] bcast_S524288x16_S524288x16x1_0_1),
    StableHlo.binary main_arg1 main_v79 main_v80 (fun x i => Host.gather gather_S8388608x2_S524288x16x1_S524288x16x2_2_0_n_n_0_2_12 x i) ]

abbrev cor2 : List (HloOp τ sig (Elt F)) :=
  [ StableHlo.unary main_v12 main_v81 (extractStridedSlice S524288x16x1 ![0, 0, 0] · slices_S524288x16x3_S524288x16x1_0_0_0),
    StableHlo.reshape main_v81 main_v82 rfl shapeCasts_S524288x16x1_S524288x16,
    StableHlo.unary main_v12 main_v83 (extractStridedSlice S524288x16x1 ![0, 0, 1] · slices_S524288x16x3_S524288x16x1_0_0_1),
    StableHlo.reshape main_v83 main_v84 rfl shapeCasts_S524288x16x1_S524288x16,
    StableHlo.unary main_v11 main_v85 (extractStridedSlice S524288x16x1 ![0, 0, 2] · slices_S524288x16x3_S524288x16x1_0_0_2),
    StableHlo.reshape main_v85 main_v86 rfl shapeCasts_S524288x16x1_S524288x16,
    StableHlo.unary main_v82 main_v87 (broadcastInDim S524288x16x1 ![0, 1] bcast_S524288x16_S524288x16x1_0_1),
    StableHlo.unary main_v84 main_v88 (broadcastInDim S524288x16x1 ![0, 1] bcast_S524288x16_S524288x16x1_0_1),
    StableHlo.unary main_v86 main_v89 (broadcastInDim S524288x16x1 ![0, 1] bcast_S524288x16_S524288x16x1_0_1),
    StableHlo.nary ![main_v87, main_v88, main_v89] main_v90 (fun u => concatenate S524288x16x3 2 [⟨S524288x16x1, u 0⟩, ⟨S524288x16x1, u 1⟩, ⟨S524288x16x1, u 2⟩] concatenates_S524288x16x1_S524288x16x1_S524288x16x1_S524288x16x3_d2),
    StableHlo.unary main_c main_v91 (broadcastInDim S1x1x3 ![2] bcast_S3_S1x1x3_2),
    StableHlo.unary main_v91 main_v92 (broadcastInDim S524288x16x3 ![0, 1, 2] bcast_S1x1x3_S524288x16x3_0_1_2),
    StableHlo.binary main_v90 main_v92 main_v93 muli,
    StableHlo.unary main_v93 main_v94 (extractStridedSlice S524288x16x1 ![0, 0, 0] · slices_S524288x16x3_S524288x16x1_0_0_0),
    StableHlo.reshape main_v94 main_v95 rfl shapeCasts_S524288x16x1_S524288x16,
    StableHlo.unary main_v93 main_v96 (extractStridedSlice S524288x16x1 ![0, 0, 1] · slices_S524288x16x3_S524288x16x1_0_0_1),
    StableHlo.reshape main_v96 main_v97 rfl shapeCasts_S524288x16x1_S524288x16,
    StableHlo.binary main_v95 main_v97 main_v98 xori,
    StableHlo.unary main_v93 main_v99 (extractStridedSlice S524288x16x1 ![0, 0, 2] · slices_S524288x16x3_S524288x16x1_0_0_2),
    StableHlo.reshape main_v99 main_v100 rfl shapeCasts_S524288x16x1_S524288x16,
    StableHlo.binary main_v98 main_v100 main_v101 xori,
    StableHlo.nullary main_c_7 (constantI S_ 32 524287#32),
    StableHlo.unary main_c_7 main_v102 (broadcastInDim S524288x16 ![] bcast_S_S524288x16),
    StableHlo.binary main_v101 main_v102 main_v103 andi,
    StableHlo.unary main_v103 main_v104 id,
    StableHlo.unary main_c_0 main_v105 (broadcastInDim S1x16 ![1] bcast_S16_S1x16_1),
    StableHlo.unary main_v105 main_v106 (broadcastInDim S524288x16 ![0, 1] bcast_S1x16_S524288x16_0_1),
    StableHlo.binary main_v104 main_v106 main_v107 addi,
    StableHlo.nullary main_c_8 (constantI S_ 32 0#32),
    StableHlo.unary main_c_8 main_v108 (broadcastInDim S524288x16 ![] bcast_S_S524288x16),
    StableHlo.binary main_v107 main_v108 main_v109 (cmpi .slt),
    StableHlo.nullary main_c_9 (constantI S_ 32 8388608#32),
    StableHlo.unary main_c_9 main_v110 (broadcastInDim S524288x16 ![] bcast_S_S524288x16),
    StableHlo.binary main_v107 main_v110 main_v111 addi,
    StableHlo.ternary main_v109 main_v111 main_v107 main_v112 select,
    StableHlo.unary main_v112 main_v113 (broadcastInDim S524288x16x1 ![0, 1] bcast_S524288x16_S524288x16x1_0_1),
    StableHlo.binary main_arg1 main_v113 main_v114 (fun x i => Host.gather gather_S8388608x2_S524288x16x1_S524288x16x2_2_0_n_n_0_2_12 x i) ]

abbrev cor3 : List (HloOp τ sig (Elt F)) :=
  [ StableHlo.unary main_v12 main_v115 (extractStridedSlice S524288x16x1 ![0, 0, 0] · slices_S524288x16x3_S524288x16x1_0_0_0),
    StableHlo.reshape main_v115 main_v116 rfl shapeCasts_S524288x16x1_S524288x16,
    StableHlo.unary main_v11 main_v117 (extractStridedSlice S524288x16x1 ![0, 0, 1] · slices_S524288x16x3_S524288x16x1_0_0_1),
    StableHlo.reshape main_v117 main_v118 rfl shapeCasts_S524288x16x1_S524288x16,
    StableHlo.unary main_v11 main_v119 (extractStridedSlice S524288x16x1 ![0, 0, 2] · slices_S524288x16x3_S524288x16x1_0_0_2),
    StableHlo.reshape main_v119 main_v120 rfl shapeCasts_S524288x16x1_S524288x16,
    StableHlo.unary main_v116 main_v121 (broadcastInDim S524288x16x1 ![0, 1] bcast_S524288x16_S524288x16x1_0_1),
    StableHlo.unary main_v118 main_v122 (broadcastInDim S524288x16x1 ![0, 1] bcast_S524288x16_S524288x16x1_0_1),
    StableHlo.unary main_v120 main_v123 (broadcastInDim S524288x16x1 ![0, 1] bcast_S524288x16_S524288x16x1_0_1),
    StableHlo.nary ![main_v121, main_v122, main_v123] main_v124 (fun u => concatenate S524288x16x3 2 [⟨S524288x16x1, u 0⟩, ⟨S524288x16x1, u 1⟩, ⟨S524288x16x1, u 2⟩] concatenates_S524288x16x1_S524288x16x1_S524288x16x1_S524288x16x3_d2),
    StableHlo.unary main_c main_v125 (broadcastInDim S1x1x3 ![2] bcast_S3_S1x1x3_2),
    StableHlo.unary main_v125 main_v126 (broadcastInDim S524288x16x3 ![0, 1, 2] bcast_S1x1x3_S524288x16x3_0_1_2),
    StableHlo.binary main_v124 main_v126 main_v127 muli,
    StableHlo.unary main_v127 main_v128 (extractStridedSlice S524288x16x1 ![0, 0, 0] · slices_S524288x16x3_S524288x16x1_0_0_0),
    StableHlo.reshape main_v128 main_v129 rfl shapeCasts_S524288x16x1_S524288x16,
    StableHlo.unary main_v127 main_v130 (extractStridedSlice S524288x16x1 ![0, 0, 1] · slices_S524288x16x3_S524288x16x1_0_0_1),
    StableHlo.reshape main_v130 main_v131 rfl shapeCasts_S524288x16x1_S524288x16,
    StableHlo.binary main_v129 main_v131 main_v132 xori,
    StableHlo.unary main_v127 main_v133 (extractStridedSlice S524288x16x1 ![0, 0, 2] · slices_S524288x16x3_S524288x16x1_0_0_2),
    StableHlo.reshape main_v133 main_v134 rfl shapeCasts_S524288x16x1_S524288x16,
    StableHlo.binary main_v132 main_v134 main_v135 xori,
    StableHlo.nullary main_c_10 (constantI S_ 32 524287#32),
    StableHlo.unary main_c_10 main_v136 (broadcastInDim S524288x16 ![] bcast_S_S524288x16),
    StableHlo.binary main_v135 main_v136 main_v137 andi,
    StableHlo.unary main_v137 main_v138 id,
    StableHlo.unary main_c_0 main_v139 (broadcastInDim S1x16 ![1] bcast_S16_S1x16_1),
    StableHlo.unary main_v139 main_v140 (broadcastInDim S524288x16 ![0, 1] bcast_S1x16_S524288x16_0_1),
    StableHlo.binary main_v138 main_v140 main_v141 addi,
    StableHlo.nullary main_c_11 (constantI S_ 32 0#32),
    StableHlo.unary main_c_11 main_v142 (broadcastInDim S524288x16 ![] bcast_S_S524288x16),
    StableHlo.binary main_v141 main_v142 main_v143 (cmpi .slt),
    StableHlo.nullary main_c_12 (constantI S_ 32 8388608#32),
    StableHlo.unary main_c_12 main_v144 (broadcastInDim S524288x16 ![] bcast_S_S524288x16),
    StableHlo.binary main_v141 main_v144 main_v145 addi,
    StableHlo.ternary main_v143 main_v145 main_v141 main_v146 select,
    StableHlo.unary main_v146 main_v147 (broadcastInDim S524288x16x1 ![0, 1] bcast_S524288x16_S524288x16x1_0_1),
    StableHlo.binary main_arg1 main_v147 main_v148 (fun x i => Host.gather gather_S8388608x2_S524288x16x1_S524288x16x2_2_0_n_n_0_2_12 x i) ]

abbrev cor4 : List (HloOp τ sig (Elt F)) :=
  [ StableHlo.unary main_v11 main_v149 (extractStridedSlice S524288x16x1 ![0, 0, 0] · slices_S524288x16x3_S524288x16x1_0_0_0),
    StableHlo.reshape main_v149 main_v150 rfl shapeCasts_S524288x16x1_S524288x16,
    StableHlo.unary main_v11 main_v151 (extractStridedSlice S524288x16x1 ![0, 0, 1] · slices_S524288x16x3_S524288x16x1_0_0_1),
    StableHlo.reshape main_v151 main_v152 rfl shapeCasts_S524288x16x1_S524288x16,
    StableHlo.unary main_v12 main_v153 (extractStridedSlice S524288x16x1 ![0, 0, 2] · slices_S524288x16x3_S524288x16x1_0_0_2),
    StableHlo.reshape main_v153 main_v154 rfl shapeCasts_S524288x16x1_S524288x16,
    StableHlo.unary main_v150 main_v155 (broadcastInDim S524288x16x1 ![0, 1] bcast_S524288x16_S524288x16x1_0_1),
    StableHlo.unary main_v152 main_v156 (broadcastInDim S524288x16x1 ![0, 1] bcast_S524288x16_S524288x16x1_0_1),
    StableHlo.unary main_v154 main_v157 (broadcastInDim S524288x16x1 ![0, 1] bcast_S524288x16_S524288x16x1_0_1),
    StableHlo.nary ![main_v155, main_v156, main_v157] main_v158 (fun u => concatenate S524288x16x3 2 [⟨S524288x16x1, u 0⟩, ⟨S524288x16x1, u 1⟩, ⟨S524288x16x1, u 2⟩] concatenates_S524288x16x1_S524288x16x1_S524288x16x1_S524288x16x3_d2),
    StableHlo.unary main_c main_v159 (broadcastInDim S1x1x3 ![2] bcast_S3_S1x1x3_2),
    StableHlo.unary main_v159 main_v160 (broadcastInDim S524288x16x3 ![0, 1, 2] bcast_S1x1x3_S524288x16x3_0_1_2),
    StableHlo.binary main_v158 main_v160 main_v161 muli,
    StableHlo.unary main_v161 main_v162 (extractStridedSlice S524288x16x1 ![0, 0, 0] · slices_S524288x16x3_S524288x16x1_0_0_0),
    StableHlo.reshape main_v162 main_v163 rfl shapeCasts_S524288x16x1_S524288x16,
    StableHlo.unary main_v161 main_v164 (extractStridedSlice S524288x16x1 ![0, 0, 1] · slices_S524288x16x3_S524288x16x1_0_0_1),
    StableHlo.reshape main_v164 main_v165 rfl shapeCasts_S524288x16x1_S524288x16,
    StableHlo.binary main_v163 main_v165 main_v166 xori,
    StableHlo.unary main_v161 main_v167 (extractStridedSlice S524288x16x1 ![0, 0, 2] · slices_S524288x16x3_S524288x16x1_0_0_2),
    StableHlo.reshape main_v167 main_v168 rfl shapeCasts_S524288x16x1_S524288x16,
    StableHlo.binary main_v166 main_v168 main_v169 xori,
    StableHlo.nullary main_c_13 (constantI S_ 32 524287#32),
    StableHlo.unary main_c_13 main_v170 (broadcastInDim S524288x16 ![] bcast_S_S524288x16),
    StableHlo.binary main_v169 main_v170 main_v171 andi,
    StableHlo.unary main_v171 main_v172 id,
    StableHlo.unary main_c_0 main_v173 (broadcastInDim S1x16 ![1] bcast_S16_S1x16_1),
    StableHlo.unary main_v173 main_v174 (broadcastInDim S524288x16 ![0, 1] bcast_S1x16_S524288x16_0_1),
    StableHlo.binary main_v172 main_v174 main_v175 addi,
    StableHlo.nullary main_c_14 (constantI S_ 32 0#32),
    StableHlo.unary main_c_14 main_v176 (broadcastInDim S524288x16 ![] bcast_S_S524288x16),
    StableHlo.binary main_v175 main_v176 main_v177 (cmpi .slt),
    StableHlo.nullary main_c_15 (constantI S_ 32 8388608#32),
    StableHlo.unary main_c_15 main_v178 (broadcastInDim S524288x16 ![] bcast_S_S524288x16),
    StableHlo.binary main_v175 main_v178 main_v179 addi,
    StableHlo.ternary main_v177 main_v179 main_v175 main_v180 select,
    StableHlo.unary main_v180 main_v181 (broadcastInDim S524288x16x1 ![0, 1] bcast_S524288x16_S524288x16x1_0_1),
    StableHlo.binary main_arg1 main_v181 main_v182 (fun x i => Host.gather gather_S8388608x2_S524288x16x1_S524288x16x2_2_0_n_n_0_2_12 x i) ]

abbrev cor5 : List (HloOp τ sig (Elt F)) :=
  [ StableHlo.unary main_v11 main_v183 (extractStridedSlice S524288x16x1 ![0, 0, 0] · slices_S524288x16x3_S524288x16x1_0_0_0),
    StableHlo.reshape main_v183 main_v184 rfl shapeCasts_S524288x16x1_S524288x16,
    StableHlo.unary main_v12 main_v185 (extractStridedSlice S524288x16x1 ![0, 0, 1] · slices_S524288x16x3_S524288x16x1_0_0_1),
    StableHlo.reshape main_v185 main_v186 rfl shapeCasts_S524288x16x1_S524288x16,
    StableHlo.unary main_v12 main_v187 (extractStridedSlice S524288x16x1 ![0, 0, 2] · slices_S524288x16x3_S524288x16x1_0_0_2),
    StableHlo.reshape main_v187 main_v188 rfl shapeCasts_S524288x16x1_S524288x16,
    StableHlo.unary main_v184 main_v189 (broadcastInDim S524288x16x1 ![0, 1] bcast_S524288x16_S524288x16x1_0_1),
    StableHlo.unary main_v186 main_v190 (broadcastInDim S524288x16x1 ![0, 1] bcast_S524288x16_S524288x16x1_0_1),
    StableHlo.unary main_v188 main_v191 (broadcastInDim S524288x16x1 ![0, 1] bcast_S524288x16_S524288x16x1_0_1),
    StableHlo.nary ![main_v189, main_v190, main_v191] main_v192 (fun u => concatenate S524288x16x3 2 [⟨S524288x16x1, u 0⟩, ⟨S524288x16x1, u 1⟩, ⟨S524288x16x1, u 2⟩] concatenates_S524288x16x1_S524288x16x1_S524288x16x1_S524288x16x3_d2),
    StableHlo.unary main_c main_v193 (broadcastInDim S1x1x3 ![2] bcast_S3_S1x1x3_2),
    StableHlo.unary main_v193 main_v194 (broadcastInDim S524288x16x3 ![0, 1, 2] bcast_S1x1x3_S524288x16x3_0_1_2),
    StableHlo.binary main_v192 main_v194 main_v195 muli,
    StableHlo.unary main_v195 main_v196 (extractStridedSlice S524288x16x1 ![0, 0, 0] · slices_S524288x16x3_S524288x16x1_0_0_0),
    StableHlo.reshape main_v196 main_v197 rfl shapeCasts_S524288x16x1_S524288x16,
    StableHlo.unary main_v195 main_v198 (extractStridedSlice S524288x16x1 ![0, 0, 1] · slices_S524288x16x3_S524288x16x1_0_0_1),
    StableHlo.reshape main_v198 main_v199 rfl shapeCasts_S524288x16x1_S524288x16,
    StableHlo.binary main_v197 main_v199 main_v200 xori,
    StableHlo.unary main_v195 main_v201 (extractStridedSlice S524288x16x1 ![0, 0, 2] · slices_S524288x16x3_S524288x16x1_0_0_2),
    StableHlo.reshape main_v201 main_v202 rfl shapeCasts_S524288x16x1_S524288x16,
    StableHlo.binary main_v200 main_v202 main_v203 xori,
    StableHlo.nullary main_c_16 (constantI S_ 32 524287#32),
    StableHlo.unary main_c_16 main_v204 (broadcastInDim S524288x16 ![] bcast_S_S524288x16),
    StableHlo.binary main_v203 main_v204 main_v205 andi,
    StableHlo.unary main_v205 main_v206 id,
    StableHlo.unary main_c_0 main_v207 (broadcastInDim S1x16 ![1] bcast_S16_S1x16_1),
    StableHlo.unary main_v207 main_v208 (broadcastInDim S524288x16 ![0, 1] bcast_S1x16_S524288x16_0_1),
    StableHlo.binary main_v206 main_v208 main_v209 addi,
    StableHlo.nullary main_c_17 (constantI S_ 32 0#32),
    StableHlo.unary main_c_17 main_v210 (broadcastInDim S524288x16 ![] bcast_S_S524288x16),
    StableHlo.binary main_v209 main_v210 main_v211 (cmpi .slt),
    StableHlo.nullary main_c_18 (constantI S_ 32 8388608#32),
    StableHlo.unary main_c_18 main_v212 (broadcastInDim S524288x16 ![] bcast_S_S524288x16),
    StableHlo.binary main_v209 main_v212 main_v213 addi,
    StableHlo.ternary main_v211 main_v213 main_v209 main_v214 select,
    StableHlo.unary main_v214 main_v215 (broadcastInDim S524288x16x1 ![0, 1] bcast_S524288x16_S524288x16x1_0_1),
    StableHlo.binary main_arg1 main_v215 main_v216 (fun x i => Host.gather gather_S8388608x2_S524288x16x1_S524288x16x2_2_0_n_n_0_2_12 x i) ]

abbrev cor6 : List (HloOp τ sig (Elt F)) :=
  [ StableHlo.unary main_v12 main_v217 (extractStridedSlice S524288x16x1 ![0, 0, 0] · slices_S524288x16x3_S524288x16x1_0_0_0),
    StableHlo.reshape main_v217 main_v218 rfl shapeCasts_S524288x16x1_S524288x16,
    StableHlo.unary main_v12 main_v219 (extractStridedSlice S524288x16x1 ![0, 0, 1] · slices_S524288x16x3_S524288x16x1_0_0_1),
    StableHlo.reshape main_v219 main_v220 rfl shapeCasts_S524288x16x1_S524288x16,
    StableHlo.unary main_v12 main_v221 (extractStridedSlice S524288x16x1 ![0, 0, 2] · slices_S524288x16x3_S524288x16x1_0_0_2),
    StableHlo.reshape main_v221 main_v222 rfl shapeCasts_S524288x16x1_S524288x16,
    StableHlo.unary main_v218 main_v223 (broadcastInDim S524288x16x1 ![0, 1] bcast_S524288x16_S524288x16x1_0_1),
    StableHlo.unary main_v220 main_v224 (broadcastInDim S524288x16x1 ![0, 1] bcast_S524288x16_S524288x16x1_0_1),
    StableHlo.unary main_v222 main_v225 (broadcastInDim S524288x16x1 ![0, 1] bcast_S524288x16_S524288x16x1_0_1),
    StableHlo.nary ![main_v223, main_v224, main_v225] main_v226 (fun u => concatenate S524288x16x3 2 [⟨S524288x16x1, u 0⟩, ⟨S524288x16x1, u 1⟩, ⟨S524288x16x1, u 2⟩] concatenates_S524288x16x1_S524288x16x1_S524288x16x1_S524288x16x3_d2),
    StableHlo.unary main_c main_v227 (broadcastInDim S1x1x3 ![2] bcast_S3_S1x1x3_2),
    StableHlo.unary main_v227 main_v228 (broadcastInDim S524288x16x3 ![0, 1, 2] bcast_S1x1x3_S524288x16x3_0_1_2),
    StableHlo.binary main_v226 main_v228 main_v229 muli,
    StableHlo.unary main_v229 main_v230 (extractStridedSlice S524288x16x1 ![0, 0, 0] · slices_S524288x16x3_S524288x16x1_0_0_0),
    StableHlo.reshape main_v230 main_v231 rfl shapeCasts_S524288x16x1_S524288x16,
    StableHlo.unary main_v229 main_v232 (extractStridedSlice S524288x16x1 ![0, 0, 1] · slices_S524288x16x3_S524288x16x1_0_0_1),
    StableHlo.reshape main_v232 main_v233 rfl shapeCasts_S524288x16x1_S524288x16,
    StableHlo.binary main_v231 main_v233 main_v234 xori,
    StableHlo.unary main_v229 main_v235 (extractStridedSlice S524288x16x1 ![0, 0, 2] · slices_S524288x16x3_S524288x16x1_0_0_2),
    StableHlo.reshape main_v235 main_v236 rfl shapeCasts_S524288x16x1_S524288x16,
    StableHlo.binary main_v234 main_v236 main_v237 xori,
    StableHlo.nullary main_c_19 (constantI S_ 32 524287#32),
    StableHlo.unary main_c_19 main_v238 (broadcastInDim S524288x16 ![] bcast_S_S524288x16),
    StableHlo.binary main_v237 main_v238 main_v239 andi,
    StableHlo.unary main_v239 main_v240 id,
    StableHlo.unary main_c_0 main_v241 (broadcastInDim S1x16 ![1] bcast_S16_S1x16_1),
    StableHlo.unary main_v241 main_v242 (broadcastInDim S524288x16 ![0, 1] bcast_S1x16_S524288x16_0_1),
    StableHlo.binary main_v240 main_v242 main_v243 addi,
    StableHlo.nullary main_c_20 (constantI S_ 32 0#32),
    StableHlo.unary main_c_20 main_v244 (broadcastInDim S524288x16 ![] bcast_S_S524288x16),
    StableHlo.binary main_v243 main_v244 main_v245 (cmpi .slt),
    StableHlo.nullary main_c_21 (constantI S_ 32 8388608#32),
    StableHlo.unary main_c_21 main_v246 (broadcastInDim S524288x16 ![] bcast_S_S524288x16),
    StableHlo.binary main_v243 main_v246 main_v247 addi,
    StableHlo.ternary main_v245 main_v247 main_v243 main_v248 select,
    StableHlo.unary main_v248 main_v249 (broadcastInDim S524288x16x1 ![0, 1] bcast_S524288x16_S524288x16x1_0_1),
    StableHlo.binary main_arg1 main_v249 main_v250 (fun x i => Host.gather gather_S8388608x2_S524288x16x1_S524288x16x2_2_0_n_n_0_2_12 x i) ]

abbrev cor7 : List (HloOp τ sig (Elt F)) :=
  [ StableHlo.unary main_v12 main_v251 (extractStridedSlice S524288x16x1 ![0, 0, 0] · slices_S524288x16x3_S524288x16x1_0_0_0),
    StableHlo.reshape main_v251 main_v252 rfl shapeCasts_S524288x16x1_S524288x16,
    StableHlo.unary main_v11 main_v253 (extractStridedSlice S524288x16x1 ![0, 0, 1] · slices_S524288x16x3_S524288x16x1_0_0_1),
    StableHlo.reshape main_v253 main_v254 rfl shapeCasts_S524288x16x1_S524288x16,
    StableHlo.unary main_v12 main_v255 (extractStridedSlice S524288x16x1 ![0, 0, 2] · slices_S524288x16x3_S524288x16x1_0_0_2),
    StableHlo.reshape main_v255 main_v256 rfl shapeCasts_S524288x16x1_S524288x16,
    StableHlo.unary main_v252 main_v257 (broadcastInDim S524288x16x1 ![0, 1] bcast_S524288x16_S524288x16x1_0_1),
    StableHlo.unary main_v254 main_v258 (broadcastInDim S524288x16x1 ![0, 1] bcast_S524288x16_S524288x16x1_0_1),
    StableHlo.unary main_v256 main_v259 (broadcastInDim S524288x16x1 ![0, 1] bcast_S524288x16_S524288x16x1_0_1),
    StableHlo.nary ![main_v257, main_v258, main_v259] main_v260 (fun u => concatenate S524288x16x3 2 [⟨S524288x16x1, u 0⟩, ⟨S524288x16x1, u 1⟩, ⟨S524288x16x1, u 2⟩] concatenates_S524288x16x1_S524288x16x1_S524288x16x1_S524288x16x3_d2),
    StableHlo.unary main_c main_v261 (broadcastInDim S1x1x3 ![2] bcast_S3_S1x1x3_2),
    StableHlo.unary main_v261 main_v262 (broadcastInDim S524288x16x3 ![0, 1, 2] bcast_S1x1x3_S524288x16x3_0_1_2),
    StableHlo.binary main_v260 main_v262 main_v263 muli,
    StableHlo.unary main_v263 main_v264 (extractStridedSlice S524288x16x1 ![0, 0, 0] · slices_S524288x16x3_S524288x16x1_0_0_0),
    StableHlo.reshape main_v264 main_v265 rfl shapeCasts_S524288x16x1_S524288x16,
    StableHlo.unary main_v263 main_v266 (extractStridedSlice S524288x16x1 ![0, 0, 1] · slices_S524288x16x3_S524288x16x1_0_0_1),
    StableHlo.reshape main_v266 main_v267 rfl shapeCasts_S524288x16x1_S524288x16,
    StableHlo.binary main_v265 main_v267 main_v268 xori,
    StableHlo.unary main_v263 main_v269 (extractStridedSlice S524288x16x1 ![0, 0, 2] · slices_S524288x16x3_S524288x16x1_0_0_2),
    StableHlo.reshape main_v269 main_v270 rfl shapeCasts_S524288x16x1_S524288x16,
    StableHlo.binary main_v268 main_v270 main_v271 xori,
    StableHlo.nullary main_c_22 (constantI S_ 32 524287#32),
    StableHlo.unary main_c_22 main_v272 (broadcastInDim S524288x16 ![] bcast_S_S524288x16),
    StableHlo.binary main_v271 main_v272 main_v273 andi,
    StableHlo.unary main_v273 main_v274 id,
    StableHlo.unary main_c_0 main_v275 (broadcastInDim S1x16 ![1] bcast_S16_S1x16_1),
    StableHlo.unary main_v275 main_v276 (broadcastInDim S524288x16 ![0, 1] bcast_S1x16_S524288x16_0_1),
    StableHlo.binary main_v274 main_v276 main_v277 addi,
    StableHlo.nullary main_c_23 (constantI S_ 32 0#32),
    StableHlo.unary main_c_23 main_v278 (broadcastInDim S524288x16 ![] bcast_S_S524288x16),
    StableHlo.binary main_v277 main_v278 main_v279 (cmpi .slt),
    StableHlo.nullary main_c_24 (constantI S_ 32 8388608#32),
    StableHlo.unary main_c_24 main_v280 (broadcastInDim S524288x16 ![] bcast_S_S524288x16),
    StableHlo.binary main_v277 main_v280 main_v281 addi,
    StableHlo.ternary main_v279 main_v281 main_v277 main_v282 select,
    StableHlo.unary main_v282 main_v283 (broadcastInDim S524288x16x1 ![0, 1] bcast_S524288x16_S524288x16x1_0_1),
    StableHlo.binary main_arg1 main_v283 main_v284 (fun x i => Host.gather gather_S8388608x2_S524288x16x1_S524288x16x2_2_0_n_n_0_2_12 x i) ]

abbrev bl : List (HloOp τ sig (Elt F)) :=
  [ StableHlo.unary main_v10 main_v285 (extractStridedSlice S524288x16x1 ![0, 0, 0] · slices_S524288x16x3_S524288x16x1_0_0_0),
    StableHlo.unary main_v10 main_v286 (extractStridedSlice S524288x16x1 ![0, 0, 1] · slices_S524288x16x3_S524288x16x1_0_0_1),
    StableHlo.unary main_v10 main_v287 (extractStridedSlice S524288x16x1 ![0, 0, 2] · slices_S524288x16x3_S524288x16x1_0_0_2),
    StableHlo.unary main_v285 main_v288 (broadcastInDim S524288x16x2 ![0, 1, 2] bcast_S524288x16x1_S524288x16x2_0_1_2),
    StableHlo.binary main_v46 main_v288 main_v289 mulf,
    StableHlo.nullary main_cst_25 (constant S_ .f32 0x3F800000#32),
    StableHlo.unary main_cst_25 main_v290 (broadcastInDim S524288x16x1 ![] bcast_S_S524288x16x1),
    StableHlo.binary main_v290 main_v285 main_v291 subf,
    StableHlo.unary main_v291 main_v292 (broadcastInDim S524288x16x2 ![0, 1, 2] bcast_S524288x16x1_S524288x16x2_0_1_2),
    StableHlo.binary main_v148 main_v292 main_v293 mulf,
    StableHlo.binary main_v289 main_v293 main_v294 addf,
    StableHlo.unary main_v285 main_v295 (broadcastInDim S524288x16x2 ![0, 1, 2] bcast_S524288x16x1_S524288x16x2_0_1_2),
    StableHlo.binary main_v80 main_v295 main_v296 mulf,
    StableHlo.nullary main_cst_26 (constant S_ .f32 0x3F800000#32),
    StableHlo.unary main_cst_26 main_v297 (broadcastInDim S524288x16x1 ![] bcast_S_S524288x16x1),
    StableHlo.binary main_v297 main_v285 main_v298 subf,
    StableHlo.unary main_v298 main_v299 (broadcastInDim S524288x16x2 ![0, 1, 2] bcast_S524288x16x1_S524288x16x2_0_1_2),
    StableHlo.binary main_v114 main_v299 main_v300 mulf,
    StableHlo.binary main_v296 main_v300 main_v301 addf,
    StableHlo.unary main_v285 main_v302 (broadcastInDim S524288x16x2 ![0, 1, 2] bcast_S524288x16x1_S524288x16x2_0_1_2),
    StableHlo.binary main_v216 main_v302 main_v303 mulf,
    StableHlo.nullary main_cst_27 (constant S_ .f32 0x3F800000#32),
    StableHlo.unary main_cst_27 main_v304 (broadcastInDim S524288x16x1 ![] bcast_S_S524288x16x1),
    StableHlo.binary main_v304 main_v285 main_v305 subf,
    StableHlo.unary main_v305 main_v306 (broadcastInDim S524288x16x2 ![0, 1, 2] bcast_S524288x16x1_S524288x16x2_0_1_2),
    StableHlo.binary main_v250 main_v306 main_v307 mulf,
    StableHlo.binary main_v303 main_v307 main_v308 addf,
    StableHlo.unary main_v285 main_v309 (broadcastInDim S524288x16x2 ![0, 1, 2] bcast_S524288x16x1_S524288x16x2_0_1_2),
    StableHlo.binary main_v182 main_v309 main_v310 mulf,
    StableHlo.nullary main_cst_28 (constant S_ .f32 0x3F800000#32),
    StableHlo.unary main_cst_28 main_v311 (broadcastInDim S524288x16x1 ![] bcast_S_S524288x16x1),
    StableHlo.binary main_v311 main_v285 main_v312 subf,
    StableHlo.unary main_v312 main_v313 (broadcastInDim S524288x16x2 ![0, 1, 2] bcast_S524288x16x1_S524288x16x2_0_1_2),
    StableHlo.binary main_v284 main_v313 main_v314 mulf,
    StableHlo.binary main_v310 main_v314 main_v315 addf,
    StableHlo.unary main_v286 main_v316 (broadcastInDim S524288x16x2 ![0, 1, 2] bcast_S524288x16x1_S524288x16x2_0_1_2),
    StableHlo.binary main_v294 main_v316 main_v317 mulf,
    StableHlo.nullary main_cst_29 (constant S_ .f32 0x3F800000#32),
    StableHlo.unary main_cst_29 main_v318 (broadcastInDim S524288x16x1 ![] bcast_S_S524288x16x1),
    StableHlo.binary main_v318 main_v286 main_v319 subf,
    StableHlo.unary main_v319 main_v320 (broadcastInDim S524288x16x2 ![0, 1, 2] bcast_S524288x16x1_S524288x16x2_0_1_2),
    StableHlo.binary main_v301 main_v320 main_v321 mulf,
    StableHlo.binary main_v317 main_v321 main_v322 addf,
    StableHlo.unary main_v286 main_v323 (broadcastInDim S524288x16x2 ![0, 1, 2] bcast_S524288x16x1_S524288x16x2_0_1_2),
    StableHlo.binary main_v315 main_v323 main_v324 mulf,
    StableHlo.nullary main_cst_30 (constant S_ .f32 0x3F800000#32),
    StableHlo.unary main_cst_30 main_v325 (broadcastInDim S524288x16x1 ![] bcast_S_S524288x16x1),
    StableHlo.binary main_v325 main_v286 main_v326 subf,
    StableHlo.unary main_v326 main_v327 (broadcastInDim S524288x16x2 ![0, 1, 2] bcast_S524288x16x1_S524288x16x2_0_1_2),
    StableHlo.binary main_v308 main_v327 main_v328 mulf,
    StableHlo.binary main_v324 main_v328 main_v329 addf,
    StableHlo.unary main_v287 main_v330 (broadcastInDim S524288x16x2 ![0, 1, 2] bcast_S524288x16x1_S524288x16x2_0_1_2),
    StableHlo.binary main_v322 main_v330 main_v331 mulf,
    StableHlo.nullary main_cst_31 (constant S_ .f32 0x3F800000#32),
    StableHlo.unary main_cst_31 main_v332 (broadcastInDim S524288x16x1 ![] bcast_S_S524288x16x1),
    StableHlo.binary main_v332 main_v287 main_v333 subf,
    StableHlo.unary main_v333 main_v334 (broadcastInDim S524288x16x2 ![0, 1, 2] bcast_S524288x16x1_S524288x16x2_0_1_2),
    StableHlo.binary main_v329 main_v334 main_v335 mulf,
    StableHlo.binary main_v331 main_v335 main_v336 addf,
    StableHlo.reshape main_v336 main_v337 rfl shapeCasts_S524288x16x2_S524288x32 ]

end Cert.ReferenceIdeal.Ops

end
-- ==== Proof.ROps.lean ====
import proofs.«423078_j35673998360637_4_alg».proof.Proof.ROpsList
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

-- The reference's 372 operations, cut where the mathematics cuts.
abbrev chunks : List (HloOp τ sig (Elt F)) :=
  pre ++ (cor0 ++ (cor1 ++ (cor2 ++ (cor3 ++ (cor4 ++ (cor5 ++ (cor6 ++ (cor7 ++ bl))))))))

-- The same operations cut every sixty, as the program states them.
abbrev win0 : List (HloOp τ sig (Elt F)) := pre ++ (cor0 ++ cor1.take 7)
abbrev win1 : List (HloOp τ sig (Elt F)) := cor1.drop 7 ++ cor2.take 30
abbrev win2 : List (HloOp τ sig (Elt F)) := cor2.drop 30 ++ (cor3 ++ cor4.take 16)
abbrev win3 : List (HloOp τ sig (Elt F)) := cor4.drop 16 ++ (cor5 ++ cor6.take 2)
abbrev win4 : List (HloOp τ sig (Elt F)) := cor6.drop 2 ++ cor7.take 25
abbrev win5 : List (HloOp τ sig (Elt F)) := cor7.drop 25 ++ bl.take 48
abbrev win6 : List (HloOp τ sig (Elt F)) := bl.drop 48

theorem chunks_eq : (chunks : List (HloOp τ sig (Elt F))) = win0 ++ (win1 ++ (win2 ++ (win3 ++ (win4 ++ (win5 ++ win6))))) := rfl

theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

theorem after_chunks (V : Valuation τ sig (Elt F)) :
    after (chunks : List (HloOp τ sig (Elt F))) V
      = after bl (after cor7 (after cor6 (after cor5 (after cor4 (after cor3 (after cor2 (after cor1 (after cor0
          (after pre V))))))))) := by
  simp only [chunks, after_append]

theorem main_eq (c : Dev nD) : main (F := F) c = seq chunks := by
  have e0 : main_part0 (F := F) c = seq win0 := rfl
  have e1 : main_part1 (F := F) c = seq win1 := rfl
  have e2 : main_part2 (F := F) c = seq win2 := rfl
  have e3 : main_part3 (F := F) c = seq win3 := rfl
  have e4 : main_part4 (F := F) c = seq win4 := rfl
  have e5 : main_part5 (F := F) c = seq win5 := rfl
  have e6 : main_part6 (F := F) c = seq win6 := rfl
  rw [chunks_eq]
  simp only [seq_append, ← e0, ← e1, ← e2, ← e3, ← e4, ← e5, ← e6]
  rfl

theorem scopedRefs_eq : (Finset.univ.filter fun b : Ref sig .tc => b.isScoped) = ∅ := by decide
theorem scopedSems_eq : (Finset.univ.filter fun sm : SemLoc sig => sm.isScoped .tc) = ∅ := by decide

abbrev Ok (op : HloOp τ sig (Elt F)) : Prop := op.bufs ⊆ tcRefs τ sig ∧ op.fresh = ∅

theorem ok_append {l₁ l₂ : List (HloOp τ sig (Elt F))} (h₁ : l₁.Forall Ok) (h₂ : l₂.Forall Ok) : (l₁ ++ l₂).Forall Ok :=
  List.forall_iff_forall_mem.mpr fun op h =>
    (List.mem_append.mp h).elim (List.forall_iff_forall_mem.mp h₁ op) (List.forall_iff_forall_mem.mp h₂ op)

theorem chunks_ok : (chunks : List (HloOp τ sig (Elt F))).Forall Ok := by
  refine ok_append ?_ (ok_append ?_ (ok_append ?_ (ok_append ?_ (ok_append ?_ (ok_append ?_ (ok_append ?_
    (ok_append ?_ (ok_append ?_ ?_))))))))
  all_goals
    simp only [List.Forall, Ok, nullary_bufs_sub, unary_bufs_sub, binary_bufs_sub, ternary_bufs_sub, reshape_bufs_sub,
      nary_bufs_sub, true_and]
    repeat' constructor

theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after chunks (launchContents m d) (Proc.devRef .tc b) :=
  run_seq scopedRefs_eq scopedSems_eq defs main (fun _ => (chunks : List (HloOp τ sig (Elt F)))) main_eq
    (fun _ => List.forall_iff_forall_mem.mpr fun op h => (List.forall_iff_forall_mem.mp chunks_ok op h).1) m ρ
    (fun _ op h => (List.forall_iff_forall_mem.mp chunks_ok op h).2)

end Cert.ReferenceIdeal.Ops

end
-- ==== Proof.RPre.lean ====
import proofs.«423078_j35673998360637_4_alg».proof.Proof.ROpsList
import proofs.«423078_j35673998360637_4_alg».proof.Proof.Spec
import Idealize.ShloMosaic.Lib.StableHlo.Run
import Idealize.ShloMosaic.Lib.Pipeline.Value

noncomputable section

namespace Cert.ReferenceIdeal.Val

open Cert.ReferenceIdeal Cert.ReferenceIdeal.Gen Cert.ReferenceIdeal.Ops Idealize.ShloMosaic Idealize.ShloMosaic.TcCoe
open Idealize.SL.Sem Idealize.ShloMosaic.StableHlo Idealize.ShloMosaic.ValueIdx

variable (W : Valuation τ sig (Elt Ideal))

theorem lit0_eq : ∀ k : Fin 16, lit0 k = HashGrid.scalW k := by decide

theorem pts_apply {α : Type} (X : S524288x3.Idx → α) (b : Fin 524288) (l : Fin 16) (d : Fin 3) :
    broadcastInDim S524288x16x3 ![0, 1, 2] bcast_S524288x1x3_S524288x16x3_0_1_2
        (broadcastInDim S524288x1x3 ![0, 2] bcast_S524288x3_S524288x1x3_0_2 X) (ix3 b l d)
      = X (ix2 b d) :=
  (broadcastInDim_apply _ _ _ (ix3 b l d) (ix3 b (0 : Fin 1) d) fun a =>
      match a with
      | ⟨0, _⟩ => rfl
      | ⟨1, _⟩ => rfl
      | ⟨2, _⟩ => rfl).trans
    (broadcastInDim_apply _ _ X (ix3 b (0 : Fin 1) d) (ix2 b d) fun a =>
      match a with
      | ⟨0, _⟩ => rfl
      | ⟨1, _⟩ => rfl)

theorem res_apply {α : Type} (c : S16.Idx → α) (b : Fin 524288) (l : Fin 16) (d : Fin 3) :
    broadcastInDim S524288x16x3 ![0, 1, 2] bcast_S1x16x1_S524288x16x3_0_1_2
        (broadcastInDim S1x16x1 ![1] bcast_S16_S1x16x1_1 c) (ix3 b l d)
      = c (ix1 l) :=
  (broadcastInDim_apply _ _ _ (ix3 b l d) (ix3 (0 : Fin 1) l (0 : Fin 1)) fun a =>
      match a with
      | ⟨0, _⟩ => rfl
      | ⟨1, _⟩ => rfl
      | ⟨2, _⟩ => rfl).trans
    (broadcastInDim_apply _ _ c (ix3 (0 : Fin 1) l (0 : Fin 1)) (ix1 l) fun a =>
      match a with
      | ⟨0, _⟩ => rfl)

theorem cst_apply (l : Fin 16) :
    (fun i : S16.Idx => FloatOps.ofBits (F := Ideal) .f32 (lit0 (S16.rowMajor i))) (ix1 l) = HashGrid.scal l := by
  have e : (S16.rowMajor (ix1 l) : Fin 16) = l := Fin.ext (Shape.rowMajor_val_one (ix1 l))
  show FloatOps.ofBits (F := Ideal) .f32 (lit0 (S16.rowMajor (ix1 l))) = HashGrid.scal l
  rw [e, lit0_eq l]
  rfl

theorem scaled_apply (X : S524288x3.Idx → EReal) (b : Fin 524288) (l : Fin 16) (d : Fin 3) :
    mulf (F := Ideal) (s := S524288x16x3) (φ := .f32)
        (broadcastInDim S524288x16x3 ![0, 1, 2] bcast_S524288x1x3_S524288x16x3_0_1_2
          (broadcastInDim S524288x1x3 ![0, 2] bcast_S524288x3_S524288x1x3_0_2 X))
        (broadcastInDim S524288x16x3 ![0, 1, 2] bcast_S1x16x1_S524288x16x3_0_1_2
          (broadcastInDim S1x16x1 ![1] bcast_S16_S1x16x1_1 fun i =>
            FloatOps.ofBits (F := Ideal) .f32 (lit0 (S16.rowMajor i))))
        (ix3 b l d)
      = HashGrid.ScX X l d b :=
  congrArg₂ (FloatOps.mulf (F := Ideal) (φ := .f32)) (pts_apply X b l d) ((res_apply _ b l d).trans (cst_apply l))

theorem pre_cu : after (pre (F := Ideal)) W (Proc.devRef .tc main_v11) = HashGrid.RCU (W (Proc.devRef .tc main_arg0)) := by
  after_results
  funext j
  obtain ⟨b, l, d, rfl⟩ : ∃ (b : Fin 524288) (l : Fin 16) (d : Fin 3), j = ix3 b l d := ⟨j 0, j 1, j 2, eq_ix3 j⟩
  exact congrArg HashGrid.cw (scaled_apply (W (Proc.devRef .tc main_arg0)) b l d)

theorem pre_fu : after (pre (F := Ideal)) W (Proc.devRef .tc main_v12) = HashGrid.RFU (W (Proc.devRef .tc main_arg0)) := by
  after_results
  funext j
  obtain ⟨b, l, d, rfl⟩ : ∃ (b : Fin 524288) (l : Fin 16) (d : Fin 3), j = ix3 b l d := ⟨j 0, j 1, j 2, eq_ix3 j⟩
  exact congrArg HashGrid.fw (scaled_apply (W (Proc.devRef .tc main_arg0)) b l d)

theorem pre_off : after (pre (F := Ideal)) W (Proc.devRef .tc main_v10) = HashGrid.ROF (W (Proc.devRef .tc main_arg0)) := by
  after_results
  funext j
  obtain ⟨b, l, d, rfl⟩ : ∃ (b : Fin 524288) (l : Fin 16) (d : Fin 3), j = ix3 b l d := ⟨j 0, j 1, j 2, eq_ix3 j⟩
  exact congrArg HashGrid.offs (scaled_apply (W (Proc.devRef .tc main_arg0)) b l d)

theorem pre_c : after (pre (F := Ideal)) W (Proc.devRef .tc main_c) = fun i => lit1 (S3.rowMajor i) := by
  after_results
  rfl

theorem pre_c0 : after (pre (F := Ideal)) W (Proc.devRef .tc main_c_0) = fun i => lit2 (S16.rowMajor i) := by
  after_results
  rfl

theorem pre_arg1 : after (pre (F := Ideal)) W (Proc.devRef .tc main_arg1) = W (Proc.devRef .tc main_arg1) := by
  after_results

theorem pre_arg0 : after (pre (F := Ideal)) W (Proc.devRef .tc main_arg0) = W (Proc.devRef .tc main_arg0) := by
  after_results

end Cert.ReferenceIdeal.Val

end
-- ==== Proof.RCor.lean ====
import proofs.«423078_j35673998360637_4_alg».proof.Proof.ROpsList
import proofs.«423078_j35673998360637_4_alg».proof.Proof.Spec
import proofs.«423078_j35673998360637_4_alg».proof.Proof.LibGather
import Idealize.ShloMosaic.Lib.StableHlo.Run
import Idealize.ShloMosaic.Lib.Pipeline.Value

noncomputable section

namespace Cert.ReferenceIdeal.Val

open Cert.ReferenceIdeal Cert.ReferenceIdeal.Gen Cert.ReferenceIdeal.Ops Idealize.ShloMosaic Idealize.ShloMosaic.TcCoe
open Idealize.SL.Sem Idealize.ShloMosaic.StableHlo Idealize.ShloMosaic.ValueIdx

section Layout
variable {α : Type}

-- A unit-width slice on the last axis starting at column `d` reads column `d`.
theorem slice_apply (A : S524288x16x3.Idx → α) (off : Fin 3 → Nat) (h : S524288x16x3.Slices off S524288x16x1) (d : Fin 3)
    (h0 : off 0 = 0) (h1 : off 1 = 0) (h2 : off 2 = d.val) (b : Fin 524288) (l : Fin 16) (u : Fin 1) :
    extractStridedSlice S524288x16x1 off A h (ix3 b l u) = A (ix3 b l d) :=
  extractStridedSlice_apply off A h (ix3 b l u) (ix3 b l d) fun a => match a with
    | ⟨0, _⟩ => by show b.val = off 0 + b.val; omega
    | ⟨1, _⟩ => by show l.val = off 1 + l.val; omega
    | ⟨2, _⟩ => by show d.val = off 2 + u.val; omega

def col (off : Fin 3 → Nat) (h : S524288x16x3.Slices off S524288x16x1) (A : S524288x16x3.Idx → α) : S524288x16.Idx → α :=
  fun i => shapeCast S524288x16 (extractStridedSlice S524288x16x1 off A h) shapeCasts_S524288x16x1_S524288x16 i

theorem col_apply (A : S524288x16x3.Idx → α) (off : Fin 3 → Nat) (h : S524288x16x3.Slices off S524288x16x1) (d : Fin 3)
    (h0 : off 0 = 0) (h1 : off 1 = 0) (h2 : off 2 = d.val) (b : Fin 524288) (l : Fin 16) :
    col off h A (ix2 b l) = A (ix3 b l d) := by
  show shapeCast S524288x16 _ shapeCasts_S524288x16x1_S524288x16 (ix2 b l) = _
  refine (shapeCast_apply _ shapeCasts_S524288x16x1_S524288x16 (ix2 b l) (ix3 b l (0 : Fin 1)) ?_).trans
    (slice_apply A off h d h0 h1 h2 b l 0)
  rw [Shape.rowMajor_val_three, Shape.rowMajor_val_two]
  show (b.val * 16 + l.val) * 1 + 0 = b.val * 16 + l.val
  omega

theorem colx_apply (A : S524288x16x3.Idx → α) (b : Fin 524288) (l : Fin 16) :
    col ![0, 0, 0] slices_S524288x16x3_S524288x16x1_0_0_0 A (ix2 b l) = A (ix3 b l 0) :=
  col_apply A _ _ 0 (by rfl) (by rfl) (by rfl) b l
theorem coly_apply (A : S524288x16x3.Idx → α) (b : Fin 524288) (l : Fin 16) :
    col ![0, 0, 1] slices_S524288x16x3_S524288x16x1_0_0_1 A (ix2 b l) = A (ix3 b l 1) :=
  col_apply A _ _ 1 (by rfl) (by rfl) (by rfl) b l
theorem colz_apply (A : S524288x16x3.Idx → α) (b : Fin 524288) (l : Fin 16) :
    col ![0, 0, 2] slices_S524288x16x3_S524288x16x1_0_0_2 A (ix2 b l) = A (ix3 b l 2) :=
  col_apply A _ _ 2 (by rfl) (by rfl) (by rfl) b l

def unit1 (H : S524288x16.Idx → α) : S524288x16x1.Idx → α :=
  broadcastInDim S524288x16x1 ![0, 1] bcast_S524288x16_S524288x16x1_0_1 H

theorem unit1_apply (H : S524288x16.Idx → α) (b : Fin 524288) (l : Fin 16) :
    unit1 H (ix3 b l (0 : Fin 1)) = H (ix2 b l) :=
  broadcastInDim_apply _ bcast_S524288x16_S524288x16x1_0_1 H (ix3 b l (0 : Fin 1)) (ix2 b l) fun a => match a with
    | ⟨0, _⟩ => by show b.val = if (524288 : Nat) = 1 then 0 else b.val; rw [if_neg (by decide)]
    | ⟨1, _⟩ => by show l.val = if (16 : Nat) = 1 then 0 else l.val; rw [if_neg (by decide)]

end Layout

def cat3 (U0 U1 U2 : S524288x16x1.Idx → BitVec 32) : S524288x16x3.Idx → BitVec 32 :=
  concatenate S524288x16x3 2 [⟨S524288x16x1, U0⟩, ⟨S524288x16x1, U1⟩, ⟨S524288x16x1, U2⟩]
    concatenates_S524288x16x1_S524288x16x1_S524288x16x1_S524288x16x3_d2

section Cat
variable (U0 U1 U2 : S524288x16x1.Idx → BitVec 32) (b : Fin 524288) (l : Fin 16)

theorem cat3_x : cat3 U0 U1 U2 (ix3 b l 0) = U0 (ix3 b l (0 : Fin 1)) :=
  concatenate_apply_piece (t := S524288x16x3) (2 : Fin 3) [⟨S524288x16x1, U0⟩, ⟨S524288x16x1, U1⟩, ⟨S524288x16x1, U2⟩]
    concatenates_S524288x16x1_S524288x16x1_S524288x16x1_S524288x16x3_d2 (ix3 b l (0 : Fin 3))
    0 (show 0 < 3 by decide) S524288x16x1 U0 rfl rfl 0 rfl (ix3 b l (0 : Fin 1))
    (fun a ha => match a, ha with | ⟨0, _⟩, _ => rfl | ⟨1, _⟩, _ => rfl | ⟨2, _⟩, ha => absurd rfl ha) rfl
theorem cat3_y : cat3 U0 U1 U2 (ix3 b l 1) = U1 (ix3 b l (0 : Fin 1)) :=
  concatenate_apply_piece (t := S524288x16x3) (2 : Fin 3) [⟨S524288x16x1, U0⟩, ⟨S524288x16x1, U1⟩, ⟨S524288x16x1, U2⟩]
    concatenates_S524288x16x1_S524288x16x1_S524288x16x1_S524288x16x3_d2 (ix3 b l (1 : Fin 3))
    1 (show 1 < 3 by decide) S524288x16x1 U1 rfl rfl 1 rfl (ix3 b l (0 : Fin 1))
    (fun a ha => match a, ha with | ⟨0, _⟩, _ => rfl | ⟨1, _⟩, _ => rfl | ⟨2, _⟩, ha => absurd rfl ha) rfl
theorem cat3_z : cat3 U0 U1 U2 (ix3 b l 2) = U2 (ix3 b l (0 : Fin 1)) :=
  concatenate_apply_piece (t := S524288x16x3) (2 : Fin 3) [⟨S524288x16x1, U0⟩, ⟨S524288x16x1, U1⟩, ⟨S524288x16x1, U2⟩]
    concatenates_S524288x16x1_S524288x16x1_S524288x16x1_S524288x16x3_d2 (ix3 b l (2 : Fin 3))
    2 (show 2 < 3 by decide) S524288x16x1 U2 rfl rfl 2 rfl (ix3 b l (0 : Fin 1))
    (fun a ha => match a, ha with | ⟨0, _⟩, _ => rfl | ⟨1, _⟩, _ => rfl | ⟨2, _⟩, ha => absurd rfl ha) rfl

end Cat

def prod (P : S3.Idx → BitVec 32) (S : S524288x16x3.Idx → BitVec 32) : S524288x16x3.Idx → BitVec 32 :=
  muli S (broadcastInDim S524288x16x3 ![0, 1, 2] bcast_S1x1x3_S524288x16x3_0_1_2 (broadcastInDim S1x1x3 ![2] bcast_S3_S1x1x3_2 P))

theorem prod_apply (P : S3.Idx → BitVec 32) (S : S524288x16x3.Idx → BitVec 32) (b : Fin 524288) (l : Fin 16) (d : Fin 3) :
    prod P S (ix3 b l d) = IntOp.muli (S (ix3 b l d)) (P (ix1 d)) := by
  show IntOp.muli (S (ix3 b l d))
    (broadcastInDim S524288x16x3 ![0, 1, 2] bcast_S1x1x3_S524288x16x3_0_1_2 (broadcastInDim S1x1x3 ![2] bcast_S3_S1x1x3_2 P) (ix3 b l d)) = _
  congr 1
  refine (broadcastInDim_apply _ bcast_S1x1x3_S524288x16x3_0_1_2 _ (ix3 b l d) (ix3 (0 : Fin 1) (0 : Fin 1) d) fun a => match a with
    | ⟨0, _⟩ => rfl
    | ⟨1, _⟩ => rfl
    | ⟨2, _⟩ => by show d.val = if (3 : Nat) = 1 then 0 else d.val; rw [if_neg (by decide)]).trans ?_
  exact broadcastInDim_apply _ bcast_S3_S1x1x3_2 P (ix3 (0 : Fin 1) (0 : Fin 1) d) (ix1 d) fun a => match a with
    | ⟨0, _⟩ => by show d.val = if (3 : Nat) = 1 then 0 else d.val; rw [if_neg (by decide)]

def hash3 (P : S3.Idx → BitVec 32) (S : S524288x16x3.Idx → BitVec 32) : S524288x16.Idx → BitVec 32 :=
  xori (xori (col ![0, 0, 0] slices_S524288x16x3_S524288x16x1_0_0_0 (prod P S))
      (col ![0, 0, 1] slices_S524288x16x3_S524288x16x1_0_0_1 (prod P S)))
    (col ![0, 0, 2] slices_S524288x16x3_S524288x16x1_0_0_2 (prod P S))

theorem hash3_apply (P : S3.Idx → BitVec 32) (S : S524288x16x3.Idx → BitVec 32) (b : Fin 524288) (l : Fin 16) :
    hash3 P S (ix2 b l)
      = IntOp.xori (IntOp.xori (IntOp.muli (S (ix3 b l 0)) (P (ix1 0))) (IntOp.muli (S (ix3 b l 1)) (P (ix1 1))))
          (IntOp.muli (S (ix3 b l 2)) (P (ix1 2))) := by
  show IntOp.xori (IntOp.xori (col _ _ (prod P S) (ix2 b l)) (col _ _ (prod P S) (ix2 b l))) (col _ _ (prod P S) (ix2 b l)) = _
  rw [colx_apply, coly_apply, colz_apply, prod_apply, prod_apply, prod_apply]

def base (Lv : S16.Idx → BitVec 32) (H : S524288x16.Idx → BitVec 32) : S524288x16.Idx → BitVec 32 :=
  addi (id (andi H (broadcastInDim S524288x16 ![] bcast_S_S524288x16 (constantI S_ 32 524287#32))))
    (broadcastInDim S524288x16 ![0, 1] bcast_S1x16_S524288x16_0_1 (broadcastInDim S1x16 ![1] bcast_S16_S1x16_1 Lv))

theorem base_apply (Lv : S16.Idx → BitVec 32) (H : S524288x16.Idx → BitVec 32) (b : Fin 524288) (l : Fin 16) :
    base Lv H (ix2 b l) = IntOp.addi (IntOp.andi (H (ix2 b l)) 524287#32) (Lv (ix1 l)) := by
  show IntOp.addi (IntOp.andi (H (ix2 b l)) 524287#32)
    (broadcastInDim S524288x16 ![0, 1] bcast_S1x16_S524288x16_0_1 (broadcastInDim S1x16 ![1] bcast_S16_S1x16_1 Lv) (ix2 b l)) = _
  congr 1
  refine (broadcastInDim_apply _ bcast_S1x16_S524288x16_0_1 _ (ix2 b l) (ix2 (0 : Fin 1) l) fun a => match a with
    | ⟨0, _⟩ => rfl
    | ⟨1, _⟩ => by show l.val = if (16 : Nat) = 1 then 0 else l.val; rw [if_neg (by decide)]).trans ?_
  exact broadcastInDim_apply _ bcast_S16_S1x16_1 Lv (ix2 (0 : Fin 1) l) (ix1 l) fun a => match a with
    | ⟨0, _⟩ => by show l.val = if (16 : Nat) = 1 then 0 else l.val; rw [if_neg (by decide)]

def row (Lv : S16.Idx → BitVec 32) (H : S524288x16.Idx → BitVec 32) : S524288x16.Idx → BitVec 32 :=
  select (cmpi .slt (base Lv H) (broadcastInDim S524288x16 ![] bcast_S_S524288x16 (constantI S_ 32 0#32)))
    (addi (base Lv H) (broadcastInDim S524288x16 ![] bcast_S_S524288x16 (constantI S_ 32 8388608#32)))
    (base Lv H)

theorem row_apply (Lv : S16.Idx → BitVec 32) (H : S524288x16.Idx → BitVec 32) (b : Fin 524288) (l : Fin 16) :
    row Lv H (ix2 b l) = HashGrid.normIdx (IntOp.addi (IntOp.andi (H (ix2 b l)) 524287#32) (Lv (ix1 l))) := by
  show Scalar.select (IntOp.cmpi .slt (base Lv H (ix2 b l)) 0#32) (IntOp.addi (base Lv H (ix2 b l)) 8388608#32)
    (base Lv H (ix2 b l)) = _
  rw [base_apply]
  rfl

-- One corner's looked-up rows from the three word arrays its axes read, the primes, the levels' base rows and the table.
def corF (A0 A1 A2 : S524288x16x3.Idx → BitVec 32) (P : S3.Idx → BitVec 32) (Lv : S16.Idx → BitVec 32)
    (T : S8388608x2.Idx → EReal) : S524288x16x2.Idx → EReal :=
  Host.gather gather_S8388608x2_S524288x16x1_S524288x16x2_2_0_n_n_0_2_12 T
    (unit1 (row Lv (hash3 P (cat3 (unit1 (col ![0, 0, 0] slices_S524288x16x3_S524288x16x1_0_0_0 A0))
      (unit1 (col ![0, 0, 1] slices_S524288x16x3_S524288x16x1_0_0_1 A1))
      (unit1 (col ![0, 0, 2] slices_S524288x16x3_S524288x16x1_0_0_2 A2))))))

theorem lit2_lvl : ∀ k : Fin 16, lit2 k = HashGrid.lvl k := by decide

-- The ceiling or the floor words of all scaled coordinates.
def words (c : Bool) (X : HashGrid.SX.Idx → EReal) : S524288x16x3.Idx → BitVec 32 :=
  if c then HashGrid.RCU X else HashGrid.RFU X

theorem words_apply (c : Bool) (X : HashGrid.SX.Idx → EReal) (b : Fin 524288) (l : Fin 16) (d : Fin 3) :
    words c X (ix3 b l d) = HashGrid.pick c (HashGrid.ScX X l d b) := by
  cases c <;> rfl

-- From the ceiling or floor words on each axis as corner `k` takes them, the chunk's gather is corner `k`'s values.
theorem corF_val (k : Fin 8) (X : HashGrid.SX.Idx → EReal) (T : S8388608x2.Idx → EReal)
    {A0 A1 A2 : S524288x16x3.Idx → BitVec 32} {P : S3.Idx → BitVec 32} {Lv : S16.Idx → BitVec 32}
    (h0 : A0 = words (HashGrid.selX k) X) (h1 : A1 = words (HashGrid.selY k) X) (h2 : A2 = words (HashGrid.selZ k) X)
    (hP : P = fun i => lit1 (S3.rowMajor i)) (hLv : Lv = fun i => lit2 (S16.rowMajor i)) :
    corF A0 A1 A2 P Lv T = HashGrid.RCV k T X := by
  subst h0 h1 h2 hP hLv
  funext j
  obtain ⟨b, l, f, rfl⟩ : ∃ (b : Fin 524288) (l : Fin 16) (f : Fin 2), j = ix3 b l f := ⟨j 0, j 1, j 2, eq_ix3 j⟩
  have hl : lit2 (S16.rowMajor (ix1 l)) = HashGrid.lvl l := by
    rw [show S16.rowMajor (ix1 l) = l from Fin.ext (Shape.rowMajor_val_one _)]
    exact lit2_lvl l
  refine (GatherRead.gather_rows_apply (N := 8388608) (A := 524288) (B := 16) (K := 2) (by decide)
    gather_S8388608x2_S524288x16x1_S524288x16x2_2_0_n_n_0_2_12_wf T _ b l f).trans ?_
  show T (ix2 ⟨min (BitVec.toInt (unit1 _ (ix3 b l (0 : Fin 1)))).toNat (8388608 - 1), _⟩ f) = _
  simp only [unit1_apply, row_apply, hash3_apply, cat3_x, cat3_y, cat3_z, colx_apply, coly_apply, colz_apply,
    words_apply, hl]
  rfl

-- What every later chunk needs of the contents it starts from: the ceiling words, floor words and offsets of the points, the two integer tables, the table and the points.
structure Ready (U : Valuation τ sig (Elt Ideal)) (X : HashGrid.SX.Idx → EReal) (T : HashGrid.ST.Idx → EReal) : Prop where
  cu : U (Proc.devRef .tc main_v11) = HashGrid.RCU X
  fu : U (Proc.devRef .tc main_v12) = HashGrid.RFU X
  off : U (Proc.devRef .tc main_v10) = HashGrid.ROF X
  c : U (Proc.devRef .tc main_c) = fun i => lit1 (S3.rowMajor i)
  c0 : U (Proc.devRef .tc main_c_0) = fun i => lit2 (S16.rowMajor i)
  tbl : U (Proc.devRef .tc main_arg1) = T
  pts : U (Proc.devRef .tc main_arg0) = X

theorem Ready.step {U : Valuation τ sig (Elt Ideal)} {X : HashGrid.SX.Idx → EReal} {T : HashGrid.ST.Idx → EReal}
    (h : Ready U X T) (l : List (HloOp τ sig (Elt Ideal))) (Wl : List (Ref sig .tc))
    (hw : l.Forall fun op => op.writes ⊆ (Wl.map (Proc.devRef (τ := τ) .tc)).toFinset)
    (hn : main_v11 ∉ Wl ∧ main_v12 ∉ Wl ∧ main_v10 ∉ Wl ∧ main_c ∉ Wl ∧ main_c_0 ∉ Wl ∧ main_arg1 ∉ Wl ∧ main_arg0 ∉ Wl) :
    Ready (after l U) X T :=
  ⟨(after_of_writes_sub l U hw hn.1).trans h.cu, (after_of_writes_sub l U hw hn.2.1).trans h.fu,
   (after_of_writes_sub l U hw hn.2.2.1).trans h.off, (after_of_writes_sub l U hw hn.2.2.2.1).trans h.c,
   (after_of_writes_sub l U hw hn.2.2.2.2.1).trans h.c0, (after_of_writes_sub l U hw hn.2.2.2.2.2.1).trans h.tbl,
   (after_of_writes_sub l U hw hn.2.2.2.2.2.2).trans h.pts⟩

theorem Ready.corF_eq {U : Valuation τ sig (Elt Ideal)} {X : HashGrid.SX.Idx → EReal} {T : HashGrid.ST.Idx → EReal}
    (h : Ready U X T) (k : Fin 8) {A0 A1 A2 : S524288x16x3.Idx → BitVec 32}
    (h0 : A0 = words (HashGrid.selX k) X) (h1 : A1 = words (HashGrid.selY k) X) (h2 : A2 = words (HashGrid.selZ k) X) :
    corF A0 A1 A2 (U (Proc.devRef .tc main_c)) (U (Proc.devRef .tc main_c_0)) (U (Proc.devRef .tc main_arg1))
      = HashGrid.RCV k T X :=
  (corF_val k X _ h0 h1 h2 h.c h.c0).trans (congrArg (HashGrid.RCV k · X) h.tbl)

end Cert.ReferenceIdeal.Val

end
-- ==== Proof.RCorners.lean ====
import proofs.«423078_j35673998360637_4_alg».proof.Proof.RCor

noncomputable section

namespace Cert.ReferenceIdeal.Val

open Cert.ReferenceIdeal Cert.ReferenceIdeal.Gen Cert.ReferenceIdeal.Ops Idealize.ShloMosaic Idealize.ShloMosaic.TcCoe
open Idealize.SL.Sem Idealize.ShloMosaic.StableHlo Idealize.ShloMosaic.ValueIdx

variable (W : Valuation τ sig (Elt Ideal))

abbrev cor0_W : List (Ref sig .tc) := [main_v13, main_v14, main_v15, main_v16, main_v17, main_v18, main_v19, main_v20, main_v21, main_v22, main_v23, main_v24, main_v25, main_v26, main_v27, main_v28, main_v29, main_v30, main_v31, main_v32, main_v33, main_c_1, main_v34, main_v35, main_v36, main_v37, main_v38, main_v39, main_c_2, main_v40, main_v41, main_c_3, main_v42, main_v43, main_v44, main_v45, main_v46]

theorem cor0_writes : (cor0 (F := Ideal)).Forall fun op => op.writes ⊆ (cor0_W.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)

theorem cor0_keep (r : Ref sig .tc) (h : r ∉ cor0_W) :
    after (cor0 (F := Ideal)) W (Proc.devRef .tc r) = W (Proc.devRef .tc r) :=
  after_of_writes_sub cor0 _ cor0_writes h

theorem cor0_val {X : HashGrid.SX.Idx → EReal} {T : HashGrid.ST.Idx → EReal} (h : Ready W X T) :
    after (cor0 (F := Ideal)) W (Proc.devRef .tc main_v46) = HashGrid.RCV 0 T X := by
  refine Eq.trans ?_ (h.corF_eq 0 h.cu h.cu h.cu)
  after_results_simp
  rfl

abbrev cor1_W : List (Ref sig .tc) := [main_v47, main_v48, main_v49, main_v50, main_v51, main_v52, main_v53, main_v54, main_v55, main_v56, main_v57, main_v58, main_v59, main_v60, main_v61, main_v62, main_v63, main_v64, main_v65, main_v66, main_v67, main_c_4, main_v68, main_v69, main_v70, main_v71, main_v72, main_v73, main_c_5, main_v74, main_v75, main_c_6, main_v76, main_v77, main_v78, main_v79, main_v80]

theorem cor1_writes : (cor1 (F := Ideal)).Forall fun op => op.writes ⊆ (cor1_W.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)

theorem cor1_keep (r : Ref sig .tc) (h : r ∉ cor1_W) :
    after (cor1 (F := Ideal)) W (Proc.devRef .tc r) = W (Proc.devRef .tc r) :=
  after_of_writes_sub cor1 _ cor1_writes h

theorem cor1_val {X : HashGrid.SX.Idx → EReal} {T : HashGrid.ST.Idx → EReal} (h : Ready W X T) :
    after (cor1 (F := Ideal)) W (Proc.devRef .tc main_v80) = HashGrid.RCV 1 T X := by
  refine Eq.trans ?_ (h.corF_eq 1 h.cu h.fu h.cu)
  after_results_simp
  rfl

abbrev cor2_W : List (Ref sig .tc) := [main_v81, main_v82, main_v83, main_v84, main_v85, main_v86, main_v87, main_v88, main_v89, main_v90, main_v91, main_v92, main_v93, main_v94, main_v95, main_v96, main_v97, main_v98, main_v99, main_v100, main_v101, main_c_7, main_v102, main_v103, main_v104, main_v105, main_v106, main_v107, main_c_8, main_v108, main_v109, main_c_9, main_v110, main_v111, main_v112, main_v113, main_v114]

theorem cor2_writes : (cor2 (F := Ideal)).Forall fun op => op.writes ⊆ (cor2_W.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)

theorem cor2_keep (r : Ref sig .tc) (h : r ∉ cor2_W) :
    after (cor2 (F := Ideal)) W (Proc.devRef .tc r) = W (Proc.devRef .tc r) :=
  after_of_writes_sub cor2 _ cor2_writes h

theorem cor2_val {X : HashGrid.SX.Idx → EReal} {T : HashGrid.ST.Idx → EReal} (h : Ready W X T) :
    after (cor2 (F := Ideal)) W (Proc.devRef .tc main_v114) = HashGrid.RCV 2 T X := by
  refine Eq.trans ?_ (h.corF_eq 2 h.fu h.fu h.cu)
  after_results_simp
  rfl

abbrev cor3_W : List (Ref sig .tc) := [main_v115, main_v116, main_v117, main_v118, main_v119, main_v120, main_v121, main_v122, main_v123, main_v124, main_v125, main_v126, main_v127, main_v128, main_v129, main_v130, main_v131, main_v132, main_v133, main_v134, main_v135, main_c_10, main_v136, main_v137, main_v138, main_v139, main_v140, main_v141, main_c_11, main_v142, main_v143, main_c_12, main_v144, main_v145, main_v146, main_v147, main_v148]

theorem cor3_writes : (cor3 (F := Ideal)).Forall fun op => op.writes ⊆ (cor3_W.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)

theorem cor3_keep (r : Ref sig .tc) (h : r ∉ cor3_W) :
    after (cor3 (F := Ideal)) W (Proc.devRef .tc r) = W (Proc.devRef .tc r) :=
  after_of_writes_sub cor3 _ cor3_writes h

theorem cor3_val {X : HashGrid.SX.Idx → EReal} {T : HashGrid.ST.Idx → EReal} (h : Ready W X T) :
    after (cor3 (F := Ideal)) W (Proc.devRef .tc main_v148) = HashGrid.RCV 3 T X := by
  refine Eq.trans ?_ (h.corF_eq 3 h.fu h.cu h.cu)
  after_results_simp
  rfl

abbrev cor4_W : List (Ref sig .tc) := [main_v149, main_v150, main_v151, main_v152, main_v153, main_v154, main_v155, main_v156, main_v157, main_v158, main_v159, main_v160, main_v161, main_v162, main_v163, main_v164, main_v165, main_v166, main_v167, main_v168, main_v169, main_c_13, main_v170, main_v171, main_v172, main_v173, main_v174, main_v175, main_c_14, main_v176, main_v177, main_c_15, main_v178, main_v179, main_v180, main_v181, main_v182]

theorem cor4_writes : (cor4 (F := Ideal)).Forall fun op => op.writes ⊆ (cor4_W.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)

theorem cor4_keep (r : Ref sig .tc) (h : r ∉ cor4_W) :
    after (cor4 (F := Ideal)) W (Proc.devRef .tc r) = W (Proc.devRef .tc r) :=
  after_of_writes_sub cor4 _ cor4_writes h

theorem cor4_val {X : HashGrid.SX.Idx → EReal} {T : HashGrid.ST.Idx → EReal} (h : Ready W X T) :
    after (cor4 (F := Ideal)) W (Proc.devRef .tc main_v182) = HashGrid.RCV 4 T X := by
  refine Eq.trans ?_ (h.corF_eq 4 h.cu h.cu h.fu)
  after_results_simp
  rfl

abbrev cor5_W : List (Ref sig .tc) := [main_v183, main_v184, main_v185, main_v186, main_v187, main_v188, main_v189, main_v190, main_v191, main_v192, main_v193, main_v194, main_v195, main_v196, main_v197, main_v198, main_v199, main_v200, main_v201, main_v202, main_v203, main_c_16, main_v204, main_v205, main_v206, main_v207, main_v208, main_v209, main_c_17, main_v210, main_v211, main_c_18, main_v212, main_v213, main_v214, main_v215, main_v216]

theorem cor5_writes : (cor5 (F := Ideal)).Forall fun op => op.writes ⊆ (cor5_W.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)

theorem cor5_keep (r : Ref sig .tc) (h : r ∉ cor5_W) :
    after (cor5 (F := Ideal)) W (Proc.devRef .tc r) = W (Proc.devRef .tc r) :=
  after_of_writes_sub cor5 _ cor5_writes h

theorem cor5_val {X : HashGrid.SX.Idx → EReal} {T : HashGrid.ST.Idx → EReal} (h : Ready W X T) :
    after (cor5 (F := Ideal)) W (Proc.devRef .tc main_v216) = HashGrid.RCV 5 T X := by
  refine Eq.trans ?_ (h.corF_eq 5 h.cu h.fu h.fu)
  after_results_simp
  rfl

abbrev cor6_W : List (Ref sig .tc) := [main_v217, main_v218, main_v219, main_v220, main_v221, main_v222, main_v223, main_v224, main_v225, main_v226, main_v227, main_v228, main_v229, main_v230, main_v231, main_v232, main_v233, main_v234, main_v235, main_v236, main_v237, main_c_19, main_v238, main_v239, main_v240, main_v241, main_v242, main_v243, main_c_20, main_v244, main_v245, main_c_21, main_v246, main_v247, main_v248, main_v249, main_v250]

theorem cor6_writes : (cor6 (F := Ideal)).Forall fun op => op.writes ⊆ (cor6_W.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)

theorem cor6_keep (r : Ref sig .tc) (h : r ∉ cor6_W) :
    after (cor6 (F := Ideal)) W (Proc.devRef .tc r) = W (Proc.devRef .tc r) :=
  after_of_writes_sub cor6 _ cor6_writes h

theorem cor6_val {X : HashGrid.SX.Idx → EReal} {T : HashGrid.ST.Idx → EReal} (h : Ready W X T) :
    after (cor6 (F := Ideal)) W (Proc.devRef .tc main_v250) = HashGrid.RCV 6 T X := by
  refine Eq.trans ?_ (h.corF_eq 6 h.fu h.fu h.fu)
  after_results_simp
  rfl

abbrev cor7_W : List (Ref sig .tc) := [main_v251, main_v252, main_v253, main_v254, main_v255, main_v256, main_v257, main_v258, main_v259, main_v260, main_v261, main_v262, main_v263, main_v264, main_v265, main_v266, main_v267, main_v268, main_v269, main_v270, main_v271, main_c_22, main_v272, main_v273, main_v274, main_v275, main_v276, main_v277, main_c_23, main_v278, main_v279, main_c_24, main_v280, main_v281, main_v282, main_v283, main_v284]

theorem cor7_writes : (cor7 (F := Ideal)).Forall fun op => op.writes ⊆ (cor7_W.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)

theorem cor7_keep (r : Ref sig .tc) (h : r ∉ cor7_W) :
    after (cor7 (F := Ideal)) W (Proc.devRef .tc r) = W (Proc.devRef .tc r) :=
  after_of_writes_sub cor7 _ cor7_writes h

theorem cor7_val {X : HashGrid.SX.Idx → EReal} {T : HashGrid.ST.Idx → EReal} (h : Ready W X T) :
    after (cor7 (F := Ideal)) W (Proc.devRef .tc main_v284) = HashGrid.RCV 7 T X := by
  refine Eq.trans ?_ (h.corF_eq 7 h.fu h.cu h.fu)
  after_results_simp
  rfl

end Cert.ReferenceIdeal.Val

end
-- ==== Proof.RBl.lean ====
import proofs.«423078_j35673998360637_4_alg».proof.Proof.RCor

noncomputable section

namespace Cert.ReferenceIdeal.Val

open Cert.ReferenceIdeal Cert.ReferenceIdeal.Gen Cert.ReferenceIdeal.Ops Idealize.ShloMosaic Idealize.ShloMosaic.TcCoe
open Idealize.SL.Sem Idealize.ShloMosaic.StableHlo Idealize.ShloMosaic.ValueIdx

variable (W : Valuation τ sig (Elt Ideal))

theorem rep_apply {α : Type} (C : S524288x16x1.Idx → α) (b : Fin 524288) (l : Fin 16) (f : Fin 2) :
    broadcastInDim S524288x16x2 ![0, 1, 2] bcast_S524288x16x1_S524288x16x2_0_1_2 C (ix3 b l f)
      = C (ix3 b l (0 : Fin 1)) :=
  broadcastInDim_apply _ _ C (ix3 b l f) (ix3 b l (0 : Fin 1)) fun a =>
    match a with
    | ⟨0, _⟩ => rfl
    | ⟨1, _⟩ => rfl
    | ⟨2, _⟩ => rfl

def lerpA (A B : S524288x16x2.Idx → Elt Ideal .f32) (C : S524288x16x1.Idx → Elt Ideal .f32) :
    S524288x16x2.Idx → Elt Ideal .f32 :=
  addf (F := Ideal) (s := S524288x16x2) (φ := .f32)
    (mulf A (broadcastInDim S524288x16x2 ![0, 1, 2] bcast_S524288x16x1_S524288x16x2_0_1_2 C))
    (mulf B (broadcastInDim S524288x16x2 ![0, 1, 2] bcast_S524288x16x1_S524288x16x2_0_1_2
      (subf (broadcastInDim S524288x16x1 ![] bcast_S_S524288x16x1 (constant S_ .f32 0x3F800000#32)) C)))

theorem lerpA_apply (A B : S524288x16x2.Idx → Elt Ideal .f32) (C : S524288x16x1.Idx → Elt Ideal .f32)
    (b : Fin 524288) (l : Fin 16) (f : Fin 2) :
    lerpA A B C (ix3 b l f) = HashGrid.lerp (A (ix3 b l f)) (B (ix3 b l f)) (C (ix3 b l (0 : Fin 1))) := by
  show FloatOps.addf (F := Ideal) (φ := .f32)
      (FloatOps.mulf (A (ix3 b l f))
        (broadcastInDim S524288x16x2 ![0, 1, 2] bcast_S524288x16x1_S524288x16x2_0_1_2 C (ix3 b l f)))
      (FloatOps.mulf (B (ix3 b l f))
        (broadcastInDim S524288x16x2 ![0, 1, 2] bcast_S524288x16x1_S524288x16x2_0_1_2
          (subf (broadcastInDim S524288x16x1 ![] bcast_S_S524288x16x1 (constant S_ .f32 0x3F800000#32)) C) (ix3 b l f)))
    = _
  rw [rep_apply, rep_apply]
  rfl

theorem tree_apply (F0 F1 F2 F3 F4 F5 F6 F7 : S524288x16x2.Idx → Elt Ideal .f32) (O : S524288x16x3.Idx → Elt Ideal .f32)
    (b : Fin 524288) (l : Fin 16) (f : Fin 2) :
    lerpA
        (lerpA
          (lerpA F0 F3 (extractStridedSlice S524288x16x1 ![0, 0, 0] O slices_S524288x16x3_S524288x16x1_0_0_0))
          (lerpA F1 F2 (extractStridedSlice S524288x16x1 ![0, 0, 0] O slices_S524288x16x3_S524288x16x1_0_0_0))
          (extractStridedSlice S524288x16x1 ![0, 0, 1] O slices_S524288x16x3_S524288x16x1_0_0_1))
        (lerpA
          (lerpA F4 F7 (extractStridedSlice S524288x16x1 ![0, 0, 0] O slices_S524288x16x3_S524288x16x1_0_0_0))
          (lerpA F5 F6 (extractStridedSlice S524288x16x1 ![0, 0, 0] O slices_S524288x16x3_S524288x16x1_0_0_0))
          (extractStridedSlice S524288x16x1 ![0, 0, 1] O slices_S524288x16x3_S524288x16x1_0_0_1))
        (extractStridedSlice S524288x16x1 ![0, 0, 2] O slices_S524288x16x3_S524288x16x1_0_0_2)
        (ix3 b l f)
      = HashGrid.blend (F0 (ix3 b l f)) (F1 (ix3 b l f)) (F2 (ix3 b l f)) (F3 (ix3 b l f))
          (F4 (ix3 b l f)) (F5 (ix3 b l f)) (F6 (ix3 b l f)) (F7 (ix3 b l f))
          (O (ix3 b l (0 : Fin 3))) (O (ix3 b l (1 : Fin 3))) (O (ix3 b l (2 : Fin 3))) := by
  simp only [lerpA_apply, slice_apply _ ![0, 0, 0] slices_S524288x16x3_S524288x16x1_0_0_0 0 rfl rfl rfl,
    slice_apply _ ![0, 0, 1] slices_S524288x16x3_S524288x16x1_0_0_1 1 rfl rfl rfl,
    slice_apply _ ![0, 0, 2] slices_S524288x16x3_S524288x16x1_0_0_2 2 rfl rfl rfl]
  rfl

abbrev bl_W : List (Ref sig .tc) := [main_v285, main_v286, main_v287, main_v288, main_v289, main_cst_25, main_v290, main_v291, main_v292, main_v293, main_v294, main_v295, main_v296, main_cst_26, main_v297, main_v298, main_v299, main_v300, main_v301, main_v302, main_v303, main_cst_27, main_v304, main_v305, main_v306, main_v307, main_v308, main_v309, main_v310, main_cst_28, main_v311, main_v312, main_v313, main_v314, main_v315, main_v316, main_v317, main_cst_29, main_v318, main_v319, main_v320, main_v321, main_v322, main_v323, main_v324, main_cst_30, main_v325, main_v326, main_v327, main_v328, main_v329, main_v330, main_v331, main_cst_31, main_v332, main_v333, main_v334, main_v335, main_v336, main_v337]

theorem bl_writes : (bl (F := Ideal)).Forall fun op =>
    op.writes ⊆ (bl_W.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)

theorem bl_keep (r : Ref sig .tc) (h : r ∉ bl_W) :
    after (bl (F := Ideal)) W (Proc.devRef .tc r) = W (Proc.devRef .tc r) :=
  after_of_writes_sub bl _ bl_writes h

set_option maxHeartbeats 1000000 in

theorem bl_val :
    after (bl (F := Ideal)) W (Proc.devRef .tc main_v337)
      = HashGrid.RBL (W (Proc.devRef .tc main_v46)) (W (Proc.devRef .tc main_v80)) (W (Proc.devRef .tc main_v114))
          (W (Proc.devRef .tc main_v148)) (W (Proc.devRef .tc main_v182)) (W (Proc.devRef .tc main_v216))
          (W (Proc.devRef .tc main_v250)) (W (Proc.devRef .tc main_v284)) (W (Proc.devRef .tc main_v10)) := by
  after_results_simp
  funext j
  obtain ⟨b, c, rfl⟩ : ∃ (b : Fin 524288) (c : Fin 32), j = ix2 b c := ⟨j 0, j 1, eq_ix2 j⟩
  have hc : c.val < 32 := c.isLt

  refine (shapeCast_apply _ shapeCasts_S524288x16x2_S524288x32 (ix2 b c)
    (ix3 b (⟨c.val / 2, by omega⟩ : Fin 16) (⟨c.val % 2, by omega⟩ : Fin 2)) ?_).trans ?_
  · rw [Shape.rowMajor_val_three, Shape.rowMajor_val_two]
    show (b.val * 16 + c.val / 2) * 2 + c.val % 2 = b.val * 32 + c.val
    omega
  · exact tree_apply (W (Proc.devRef .tc main_v46)) (W (Proc.devRef .tc main_v80)) (W (Proc.devRef .tc main_v114))
      (W (Proc.devRef .tc main_v148)) (W (Proc.devRef .tc main_v182)) (W (Proc.devRef .tc main_v216))
      (W (Proc.devRef .tc main_v250)) (W (Proc.devRef .tc main_v284)) (W (Proc.devRef .tc main_v10))
      b ⟨c.val / 2, by omega⟩ ⟨c.val % 2, by omega⟩

end Cert.ReferenceIdeal.Val

end
-- ==== Proof.RValue.lean ====
import proofs.«423078_j35673998360637_4_alg».proof.Proof.ROps
import proofs.«423078_j35673998360637_4_alg».proof.Proof.Spec
import proofs.«423078_j35673998360637_4_alg».proof.Proof.RPre
import proofs.«423078_j35673998360637_4_alg».proof.Proof.RCorners
import proofs.«423078_j35673998360637_4_alg».proof.Proof.RBl

noncomputable section

namespace Cert.ReferenceIdeal.Val

open Cert.ReferenceIdeal Cert.ReferenceIdeal.Gen Cert.ReferenceIdeal.Ops Idealize.ShloMosaic Idealize.ShloMosaic.TcCoe
open Idealize.SL.Sem Idealize.ShloMosaic.StableHlo

variable (W : Valuation τ sig (Elt Ideal))

theorem ready_pre : Ready (after (pre (F := Ideal)) W) (W (Proc.devRef .tc main_arg0)) (W (Proc.devRef .tc main_arg1)) :=
  ⟨pre_cu W, pre_fu W, pre_off W, pre_c W, pre_c0 W, pre_arg1 W, pre_arg0 W⟩

theorem value :
    after (chunks (F := Ideal)) W (Proc.devRef .tc main_v337)
        = HashGrid.OUT (W (Proc.devRef .tc main_arg0)) (W (Proc.devRef .tc main_arg1))
      ∧ after (chunks (F := Ideal)) W (Proc.devRef .tc main_arg0) = W (Proc.devRef .tc main_arg0)
      ∧ after (chunks (F := Ideal)) W (Proc.devRef .tc main_arg1) = W (Proc.devRef .tc main_arg1) := by
  have r0 := ready_pre W
  have r1 := r0.step cor0 cor0_W cor0_writes (by decide)
  have r2 := r1.step cor1 cor1_W cor1_writes (by decide)
  have r3 := r2.step cor2 cor2_W cor2_writes (by decide)
  have r4 := r3.step cor3 cor3_W cor3_writes (by decide)
  have r5 := r4.step cor4 cor4_W cor4_writes (by decide)
  have r6 := r5.step cor5 cor5_W cor5_writes (by decide)
  have r7 := r6.step cor6 cor6_W cor6_writes (by decide)
  have r8 := r7.step cor7 cor7_W cor7_writes (by decide)
  rw [after_chunks]
  refine ⟨?_, (bl_keep _ main_arg0 (by decide)).trans r8.pts, (bl_keep _ main_arg1 (by decide)).trans r8.tbl⟩
  rw [bl_val]
  rw [cor7_keep _ main_v46 (by decide), cor6_keep _ main_v46 (by decide), cor5_keep _ main_v46 (by decide), cor4_keep _ main_v46 (by decide), cor3_keep _ main_v46 (by decide), cor2_keep _ main_v46 (by decide), cor1_keep _ main_v46 (by decide),
    cor7_keep _ main_v80 (by decide), cor6_keep _ main_v80 (by decide), cor5_keep _ main_v80 (by decide), cor4_keep _ main_v80 (by decide), cor3_keep _ main_v80 (by decide), cor2_keep _ main_v80 (by decide),
    cor7_keep _ main_v114 (by decide), cor6_keep _ main_v114 (by decide), cor5_keep _ main_v114 (by decide), cor4_keep _ main_v114 (by decide), cor3_keep _ main_v114 (by decide),
    cor7_keep _ main_v148 (by decide), cor6_keep _ main_v148 (by decide), cor5_keep _ main_v148 (by decide), cor4_keep _ main_v148 (by decide),
    cor7_keep _ main_v182 (by decide), cor6_keep _ main_v182 (by decide), cor5_keep _ main_v182 (by decide),
    cor7_keep _ main_v216 (by decide), cor6_keep _ main_v216 (by decide),
    cor7_keep _ main_v250 (by decide)]
  rw [cor0_val _ r0, cor1_val _ r1, cor2_val _ r2, cor3_val _ r3, cor4_val _ r4, cor5_val _ r5, cor6_val _ r6, cor7_val _ r7,
    r8.off]
  exact HashGrid.RBL_eq_OUT _ _

end Cert.ReferenceIdeal.Val

end
-- ==== Proof.lean ====
/-
  Multi-resolution hash-grid encoding.  A two-stage program (per level, the eight cell corners' table rows and the three
  offsets of every point; a host lookup of the rows; a trilinear blend) against a one-pass reference.  On the extended reals
  both end with `HashGrid.OUT`: entry `(b, 2 l + f)` is the blend, by point `b`'s offsets at level `l`, of feature `f` of the
  rows the corners' hashed integer coordinates select.  Every scalar operation is the same and in the same order on both
  sides, so no algebraic law and no finiteness of the inputs is used.
-/
import proofs.«423078_j35673998360637_4_alg».proof.Defs
import proofs.«423078_j35673998360637_4_alg».proof.Proof.Gen.Kernel
import proofs.«423078_j35673998360637_4_alg».proof.Proof.Gen.Kernel.Frame
import proofs.«423078_j35673998360637_4_alg».proof.Proof.Gen.KernelIdeal
import proofs.«423078_j35673998360637_4_alg».proof.Proof.Gen.KernelIdeal.Frame
import proofs.«423078_j35673998360637_4_alg».proof.Proof.Gen.ReferenceIdeal
import proofs.«423078_j35673998360637_4_alg».proof.Proof.Gen.Pre_finite_inputs
import proofs.«423078_j35673998360637_4_alg».proof.Proof.Spec
import proofs.«423078_j35673998360637_4_alg».proof.Proof.KRun
import proofs.«423078_j35673998360637_4_alg».proof.Proof.KValue
import proofs.«423078_j35673998360637_4_alg».proof.Proof.ROps
import proofs.«423078_j35673998360637_4_alg».proof.Proof.RValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono
    (fun _ h c =>
      ⟨(h c Cert.ReferenceIdeal.main_arg0).trans (Cert.ReferenceIdeal.Val.value (StableHlo.launchContents m c)).2.1,
       (h c Cert.ReferenceIdeal.main_arg1).trans (Cert.ReferenceIdeal.Val.value (StableHlo.launchContents m c)).2.2⟩)
    (Cert.ReferenceIdeal.Ops.run (F := Ideal) m ρ)

theorem algebraic : Cert.algebraic_KernelIdeal_ReferenceIdeal := by
  intro m ρ m' ρ' _ hagree
  refine ⟨fun c => HashGrid.OUT
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.Val.kernel_value m ρ c), (h c).2.1, (h c).2.2⟩)
      (Cert.KernelIdeal.GenV.run_values (F := Ideal) m ρ)
  · refine (θ_run Cert.ReferenceIdeal.defs _ _).mono (fun _ h c => ⟨?_, ?_, ?_⟩)
      (Cert.ReferenceIdeal.Ops.run (F := Ideal) m' ρ')
    · refine (h c Cert.ReferenceIdeal.main_v337).trans
        ((Cert.ReferenceIdeal.Val.value (StableHlo.launchContents m' c)).1.trans ?_)
      show HashGrid.OUT (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1)) = _
      rw [(hagree c).1, (hagree c).2]
    · exact (h c Cert.ReferenceIdeal.main_arg0).trans (Cert.ReferenceIdeal.Val.value (StableHlo.launchContents m' c)).2.1
    · exact (h c Cert.ReferenceIdeal.main_arg1).trans (Cert.ReferenceIdeal.Val.value (StableHlo.launchContents m' c)).2.2

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
